-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S128x128 : Shape := ⟨2, ![128, 128]⟩
abbrev S128 : Shape := ⟨1, ![128]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x600000 : S_.BroadcastsInDim S2x600000 (![] : Fin 0 → Fin S2x600000.rank)
  reducesTo_S2x600000_S_d0_1 : S2x600000.ReducesTo [0, 1] S_

variable [Facts]

def fn_part2 {F : FTy → Type} [FloatOps F] (main_arg7 : FVec F S128 .f32) (main_arg8 : IVec S2x600000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S2x600000 32 := broadcastInDim S2x600000 ![] bcast_S_S2x600000 main_c_14
  let main_v40 : IVec S2x600000 1 := cmpi .sge main_arg8 main_v39
  let main_c_15 : IVec S_ 1 := constantI S_ 1 1#1
  let main_v41 : IVec S_ 1 := (fun x v => Host.reduce IntOp.andi x v reducesTo_S2x600000_S_d0_1 h_S_) main_v40 main_c_15
  let main_v42 : IVec S_ 1 := andi main_v38 main_v41
  let main_c_16 : IVec S_ 32 := constantI S_ 32 50000#32
  let main_v43 : IVec S2x600000 32 := broadcastInDim S2x600000 ![] bcast_S_S2x600000 main_c_16
  let main_v44 : IVec S2x600000 1 := cmpi .slt main_arg8 main_v43
  let main_c_17 : IVec S_ 1 := constantI S_ 1 1#1
  let main_v45 : IVec S_ 1 := (fun x v => Host.reduce IntOp.andi x v reducesTo_S2x600000_S_d0_1 h_S_) main_v44 main_c_17
  let main_v46 : IVec S_ 1 := andi main_v42 main_v45
  main_v46

def fn_part1 {F : FTy → Type} [FloatOps F] (main_arg4 : FVec F S128x128 .f32) (main_arg5 : FVec F S128x128 .f32) (main_arg6 : FVec F S128 .f32) (main_arg7 : FVec F S128 .f32) (main_arg8 : IVec S2x600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S600000x128 .f32) (main_arg2 : FVec F S128x128 .f32) (main_arg3 : FVec F S128x128 .f32) (main_arg4 : FVec F S128x128 .f32) (main_arg5 : FVec F S128x128 .f32) (main_arg6 : FVec F S128 .f32) (main_arg7 : FVec F S128 .f32) (main_arg8 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S600000x128 : Shape := ⟨2, ![600000, 128]⟩
abbrev S128x128 : Shape := ⟨2, ![128, 128]⟩
abbrev S128 : Shape := ⟨1, ![128]⟩
abbrev S2x600000 : Shape := ⟨2, ![2, 600000]⟩
abbrev S128x8 : Shape := ⟨2, ![128, 8]⟩
abbrev S8x128 : Shape := ⟨2, ![8, 128]⟩
abbrev S128x384 : Shape := ⟨2, ![128, 384]⟩
abbrev S5000x128 : Shape := ⟨2, ![5000, 128]⟩
abbrev S5000x384 : Shape := ⟨2, ![5000, 384]⟩
abbrev S8000x128 : Shape := ⟨2, ![8000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x8 : Shape := ⟨2, ![600000, 8]⟩
abbrev S8000x8 : Shape := ⟨2, ![8000, 8]⟩
abbrev S50000x8 : Shape := ⟨2, ![50000, 8]⟩
abbrev S50000x8x16 : Shape := ⟨3, ![50000, 8, 16]⟩
abbrev S50000x8x1 : Shape := ⟨3, ![50000, 8, 1]⟩
abbrev S1x128 : Shape := ⟨2, ![1, 128]⟩

abbrev nBuf : Space → Nat
  | .hbm => 121
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S2x600000, .i32⟩
  | .hbm, ⟨9, _⟩ => ⟨S128x8, .f32⟩
  | .hbm, ⟨10, _⟩ => ⟨S8x128, .f32⟩
  | .hbm, ⟨11, _⟩ => ⟨S128x384, .f32⟩
  | .hbm, ⟨12, _⟩ => ⟨S50000x128, .f32⟩
  | .hbm, ⟨13, _⟩ => ⟨S50000x128, .f32⟩
  | .hbm, ⟨14, _⟩ => ⟨S50000x128, .f32⟩
  | .hbm, ⟨15, _⟩ => ⟨S600000x128, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S1, .i32⟩
  | .hbm, ⟨29, _⟩ => ⟨S_, .i32⟩
  | .hbm, ⟨30, _⟩ => ⟨S600000x1, .i32⟩
  | .hbm, ⟨31, _⟩ => ⟨S600000x1, .i1⟩
  | .hbm, ⟨32, _⟩ => ⟨S1x1, .i32⟩
  | .hbm, ⟨33, _⟩ => ⟨S600000x1, .i32⟩
  | .hbm, ⟨34, _⟩ => ⟨S600000x1, .i1⟩
  | .hbm, ⟨35, _⟩ => ⟨S600000x1, .i1⟩
  | .hbm, ⟨36, _⟩ => ⟨S_, .i1⟩
  | .hbm, ⟨37, _⟩ => ⟨S600000, .i1⟩
  | .hbm, ⟨38, _⟩ => ⟨S600000x128, .f32⟩
  | .hbm, ⟨39, _⟩ => ⟨S600000x128, .i1⟩
  | .hbm, ⟨40, _⟩ => ⟨S_, .f32⟩
  | .hbm, ⟨41, _⟩ => ⟨S600000x128, .f32⟩
  | .hbm, ⟨42, _⟩ => ⟨S600000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S1, .i32⟩
  | .hbm, ⟨52, _⟩ => ⟨S_, .i32⟩
  | .hbm, ⟨53, _⟩ => ⟨S600000x1, .i32⟩
  | .hbm, ⟨54, _⟩ => ⟨S600000x1, .i1⟩
  | .hbm, ⟨55, _⟩ => ⟨S1x1, .i32⟩
  | .hbm, ⟨56, _⟩ => ⟨S600000x1, .i32⟩
  | .hbm, ⟨57, _⟩ => ⟨S600000x1, .i1⟩
  | .hbm, ⟨58, _⟩ => ⟨S600000x1, .i1⟩
  | .hbm, ⟨59, _⟩ => ⟨S_, .i1⟩
  | .hbm, ⟨60, _⟩ => ⟨S600000, .i1⟩
  | .hbm, ⟨61, _⟩ => ⟨S600000x128, .f32⟩
  | .hbm, ⟨62, _⟩ => ⟨S600000x128, .i1⟩
  | .hbm, ⟨63, _⟩ => ⟨S_, .f32⟩
  | .hbm, ⟨64, _⟩ => ⟨S600000x128, .f32⟩
  | .hbm, ⟨65, _⟩ => ⟨S600000x128, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S1, .i32⟩
  | .hbm, ⟨75, _⟩ => ⟨S_, .i32⟩
  | .hbm, ⟨76, _⟩ => ⟨S600000x1, .i32⟩
  | .hbm, ⟨77, _⟩ => ⟨S600000x1, .i1⟩
  | .hbm, ⟨78, _⟩ => ⟨S1x1, .i32⟩
  | .hbm, ⟨79, _⟩ => ⟨S600000x1, .i32⟩
  | .hbm, ⟨80, _⟩ => ⟨S600000x1, .i1⟩
  | .hbm, ⟨81, _⟩ => ⟨S600000x1, .i1⟩
  | .hbm, ⟨82, _⟩ => ⟨S_, .i1⟩
  | .hbm, ⟨83, _⟩ => ⟨S600000, .i1⟩
  | .hbm, ⟨84, _⟩ => ⟨S600000x128, .f32⟩
  | .hbm, ⟨85, _⟩ => ⟨S600000x128, .i1⟩
  | .hbm, ⟨86, _⟩ => ⟨S_, .f32⟩
  | .hbm, ⟨87, _⟩ => ⟨S600000x128, .f32⟩
  | .hbm, ⟨88, _⟩ => ⟨S600000x128, .f32⟩
  | .hbm, ⟨89, _⟩ => ⟨S600000x128, .f32⟩
  | .hbm, ⟨90, _⟩ => ⟨S600000x8, .f32⟩
  | .hbm, ⟨91, _⟩ => ⟨S_, .f32⟩
  | .hbm, ⟨92, _⟩ => ⟨S50000x128, .f32⟩
  | .hbm, ⟨93, _⟩ => ⟨S600000x1, .i32⟩
  | .hbm, ⟨94, _⟩ => ⟨S50000x128, .f32⟩
  | .hbm, ⟨95, _⟩ => ⟨S_, .f32⟩
  | .hbm, ⟨96, _⟩ => ⟨S50000x8, .f32⟩
  | .hbm, ⟨97, _⟩ => ⟨S600000x1, .i32⟩
  | .hbm, ⟨98, _⟩ => ⟨S50000x8, .f32⟩
  | .hbm, ⟨99, _⟩ => ⟨S50000x8x16, .f32⟩
  | .hbm, ⟨100, _⟩ => ⟨S50000x8x1, .f32⟩
  | .hbm, ⟨101, _⟩ => ⟨S_, .f32⟩
  | .hbm, ⟨102, _⟩ => ⟨S50000x8x1, .f32⟩
  | .hbm, ⟨103, _⟩ => ⟨S50000x8x1, .f32⟩
  | .hbm, ⟨104, _⟩ => ⟨S50000x8x16, .f32⟩
  | .hbm, ⟨105, _⟩ => ⟨S50000x8x16, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S1x128, .f32⟩
  | .hbm, ⟨110, _⟩ => ⟨S_, .f32⟩
  | .hbm, ⟨111, _⟩ => ⟨S1x128, .f32⟩
  | .hbm, ⟨112, _⟩ => ⟨S1x128, .f32⟩
  | .hbm, ⟨113, _⟩ => ⟨S_, .f32⟩
  | .hbm, ⟨114, _⟩ => ⟨S1x128, .f32⟩
  | .hbm, ⟨115, _⟩ => ⟨S1x128, .f32⟩
  | .hbm, ⟨116, _⟩ => ⟨S1x128, .f32⟩
  | .hbm, ⟨117, _⟩ => ⟨S1x128, .f32⟩
  | .hbm, ⟨118, _⟩ => ⟨S1x128, .f32⟩
  | .hbm, ⟨119, _⟩ => ⟨S1x128, .f32⟩
  | .hbm, ⟨120, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S8000x128, .f32⟩
  | .local _ .vmem, ⟨10, _⟩ => ⟨S8000x128, .f32⟩
  | .local _ .vmem, ⟨11, _⟩ => ⟨S128x128, .f32⟩
  | .local _ .vmem, ⟨12, _⟩ => ⟨S8000x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S128x8, .f32⟩
  | .local _ .vmem, ⟨23, _⟩ => ⟨S8x128, .f32⟩
  | .local _ .vmem, ⟨24, _⟩ => ⟨S8000x128, .f32⟩
  | .local _ .vmem, ⟨25, _⟩ => ⟨S8000x128, .f32⟩
  | .local _ .vmem, ⟨26, _⟩ => ⟨S8000x8, .f32⟩
  | .local _ .vmem, ⟨27, _⟩ => ⟨S8000x8, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v7 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v8 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v9 : Ref sig .tc := ⟨.hbm, 88, rfl⟩
abbrev main_v10_0 : Ref sig .tc := ⟨.hbm, 89, rfl⟩
abbrev main_v10_1 : Ref sig .tc := ⟨.hbm, 90, rfl⟩
abbrev main_cst_1 : Ref sig .tc := ⟨.hbm, 91, rfl⟩
abbrev main_v11 : Ref sig .tc := ⟨.hbm, 92, rfl⟩
abbrev main_v12 : Ref sig .tc := ⟨.hbm, 93, rfl⟩
abbrev main_v13 : Ref sig .tc := ⟨.hbm, 94, rfl⟩
abbrev main_cst_2 : Ref sig .tc := ⟨.hbm, 95, rfl⟩
abbrev main_v14 : Ref sig .tc := ⟨.hbm, 96, rfl⟩
abbrev main_v15 : Ref sig .tc := ⟨.hbm, 97, rfl⟩
abbrev main_v16 : Ref sig .tc := ⟨.hbm, 98, rfl⟩
abbrev main_v17 : Ref sig .tc := ⟨.hbm, 99, rfl⟩
abbrev main_v18 : Ref sig .tc := ⟨.hbm, 100, rfl⟩
abbrev main_cst_3 : Ref sig .tc := ⟨.hbm, 101, rfl⟩
abbrev main_v19 : Ref sig .tc := ⟨.hbm, 102, rfl⟩
abbrev main_v20 : Ref sig .tc := ⟨.hbm, 103, rfl⟩
abbrev main_v21 : Ref sig .tc := ⟨.hbm, 104, rfl⟩
abbrev main_v22 : Ref sig .tc := ⟨.hbm, 105, rfl⟩
abbrev main_v23 : Ref sig .tc := ⟨.hbm, 106, rfl⟩
abbrev main_v24 : Ref sig .tc := ⟨.hbm, 107, rfl⟩
abbrev main_v25_0 : Ref sig .tc := ⟨.hbm, 108, rfl⟩
abbrev main_v25_1 : Ref sig .tc := ⟨.hbm, 109, rfl⟩
abbrev main_cst_4 : Ref sig .tc := ⟨.hbm, 110, rfl⟩
abbrev main_v26 : Ref sig .tc := ⟨.hbm, 111, rfl⟩
abbrev main_v27 : Ref sig .tc := ⟨.hbm, 112, rfl⟩
abbrev main_cst_5 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_scratch0 : Ref sig .tc := ⟨.vmem, 32, rfl⟩
abbrev cc3_scratch1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8000x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  concatenates_S128x128_S128x128_S128x128_S128x384_d1 : Shape.Concatenates [S128x128, S128x128, S128x128] S128x384 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S5000x384_o0_0_S5000x128 : S5000x384.Slices ![0, 0] S5000x128
  slices_S5000x384_o0_128_S5000x128 : S5000x384.Slices ![0, 128] S5000x128
  slices_S5000x384_o0_256_S5000x128 : S5000x384.Slices ![0, 256] S5000x128
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S8000x128_S8000x128 : S8000x128.ShapeCasts S8000x128
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  inb_S8000x8_S8000x8_0_0 : ∀ a, (![0, 0] : Fin 2 → Nat) a + S8000x8.size a ≤ S8000x8.size a
  h_S8000x8 : 0 < S8000x8.numel
  bcast_S_S50000x128 : S_.BroadcastsInDim S50000x128 (![] : Fin 0 → Fin S50000x128.rank)
  bcast_S_S50000x8 : S_.BroadcastsInDim S50000x8 (![] : Fin 0 → Fin S50000x8.rank)
  shapeCasts_S50000x128_S50000x8x16 : S50000x128.ShapeCasts S50000x8x16
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  dot_S5000x128_S128x384_S5000x384_1_0_0_1_n_n_wf : DotDims.WF S5000x128 S128x384 S5000x384 [1] [0] [0] [1] [] []
  dot_S8000x128_S128x128_S8000x128_1_0_0_1_n_n_wf : DotDims.WF S8000x128 S128x128 S8000x128 [1] [0] [0] [1] [] []
  gather_S50000x128_S600000x1_S600000x128_1_0_n_n_0_1_1128_wf : GatherDims.WF S50000x128 S600000x1 S600000x128 [1] [0] [] [0] [] 1 ![1, 128]
  dot_S8000x128_S128x8_S8000x8_1_0_0_1_n_n_wf : DotDims.WF S8000x128 S128x8 S8000x8 [1] [0] [0] [1] [] []
  dot_S8000x8_S8x128_S8000x128_1_0_0_1_n_n_wf : DotDims.WF S8000x8 S8x128 S8000x128 [1] [0] [0] [1] [] []
  scatter_S50000x128_S600000x1_S600000x128_1_0_0_1_wf : ScatterDims.WF S50000x128 S600000x1 S600000x128 [1] [0] [0] 1
  scatter_S50000x8_S600000x1_S600000x8_1_0_0_1_wf : ScatterDims.WF S50000x8 S600000x1 S600000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S600000x128.size a
  hwx1_0 : ∀ i : grid1.Coords, EltTy.bits .f32 = 32 ∨ (Rect.block (s := S600000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S600000x128.size a
  hwx1_2 : ∀ i : grid1.Coords, EltTy.bits .f32 = 32 ∨ (Rect.block (s := S600000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S600000x128.size a
  hwx2_0 : ∀ i : grid2.Coords, EltTy.bits .f32 = 32 ∨ (Rect.block (s := S600000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S600000x128.size a
  hwx2_1 : ∀ i : grid2.Coords, EltTy.bits .f32 = 32 ∨ (Rect.block (s := S600000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S600000x128.size a
  hwx2_2 : ∀ i : grid2.Coords, EltTy.bits .f32 = 32 ∨ (Rect.block (s := S600000x128) S8000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S600000x128.size a
  hwx2_3 : ∀ i : grid2.Coords, EltTy.bits .f32 = 32 ∨ (Rect.block (s := S600000x128) S8000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x8.size a ≤ S128x8.size a
  hwx2_4 : ∀ i : grid2.Coords, EltTy.bits .f32 = 32 ∨ (Rect.block (s := S128x8) S128x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S8x128.size a
  hwx2_5 : ∀ i : grid2.Coords, EltTy.bits .f32 = 32 ∨ (Rect.block (s := S8x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x128.size a ≤ S600000x128.size a
  hwx2_6 : ∀ i : grid2.Coords, EltTy.bits .f32 = 32 ∨ (Rect.block (s := S600000x128) S8000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x8.size a ≤ S600000x8.size a
  hwx2_7 : ∀ i : grid2.Coords, EltTy.bits .f32 = 32 ∨ (Rect.block (s := S600000x8) S8000x8.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S8000x128_S128x8_S8000x8_1_0_0_1_n_n : DotDims S8000x128 S128x8 S8000x8 where
  lhsContracting := [1]
  rhsContracting := [0]
  lhsNonContracting := [0]
  rhsNonContracting := [1]
  lhsBatch := []
  rhsBatch := []
  wf := dot_S8000x128_S128x8_S8000x8_1_0_0_1_n_n_wf
def dot_S8000x8_S8x128_S8000x128_1_0_0_1_n_n : DotDims S8000x8 S8x128 S8000x128 where
  lhsContracting := [1]
  rhsContracting := [0]
  lhsNonContracting := [0]
  rhsNonContracting := [1]
  lhsBatch := []
  rhsBatch := []
  wf := dot_S8000x8_S8x128_S8000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x8_S600000x1_S600000x8_1_0_0_1 : ScatterDims S50000x8 S600000x1 S600000x8 where
  updateWindowDims := [1]
  insertedWindowDims := [0]
  scatterDimsToOperandDims := [0]
  indexVectorDim := 1
  wf := scatter_S50000x8_S600000x1_S600000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v7) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S8000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S8000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_cst) S128x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_cst_0) S8x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10_0) S8000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v10_1) S8000x8.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v24) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25_0) S1x128.size cc3_transform_1 reads3_1 true true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25_1) S1x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun i => !(k3_cond2 i == 1#1) | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v24) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v32) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v33) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v34) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S128x128 : Shape := ⟨2, ![128, 128]⟩
abbrev S128 : Shape := ⟨1, ![128]⟩
abbrev S2x600000 : Shape := ⟨2, ![2, 600000]⟩
abbrev S50000x8x16 : Shape := ⟨3, ![50000, 8, 16]⟩
abbrev S600000x8x16 : Shape := ⟨3, ![600000, 8, 16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x8 : Shape := ⟨2, ![600000, 8]⟩
abbrev S600000x8x1 : Shape := ⟨3, ![600000, 8, 1]⟩
abbrev S50000x8x1 : Shape := ⟨3, ![50000, 8, 1]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S2x600000, .i32⟩
  | .hbm, ⟨9, _⟩ => ⟨S50000x128, .f32⟩
  | .hbm, ⟨10, _⟩ => ⟨S50000x8x16, .f32⟩
  | .hbm, ⟨11, _⟩ => ⟨S50000x128, .f32⟩
  | .hbm, ⟨12, _⟩ => ⟨S50000x8x16, .f32⟩
  | .hbm, ⟨13, _⟩ => ⟨S50000x128, .f32⟩
  | .hbm, ⟨14, _⟩ => ⟨S50000x8x16, .f32⟩
  | .hbm, ⟨15, _⟩ => ⟨S600000x128, .f32⟩
  | .hbm, ⟨16, _⟩ => ⟨S600000x8x16, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x8x16, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x8x16, .f32⟩
  | .hbm, ⟨39, _⟩ => ⟨S600000x8x16, .f32⟩
  | .hbm, ⟨40, _⟩ => ⟨S_, .f32⟩
  | .hbm, ⟨41, _⟩ => ⟨S_, .f32⟩
  | .hbm, ⟨42, _⟩ => ⟨S600000x8x16, .f32⟩
  | .hbm, ⟨43, _⟩ => ⟨S600000x8x16, .f32⟩
  | .hbm, ⟨44, _⟩ => ⟨S600000x8x16, .f32⟩
  | .hbm, ⟨45, _⟩ => ⟨S_, .f32⟩
  | .hbm, ⟨46, _⟩ => ⟨S600000x8, .f32⟩
  | .hbm, ⟨47, _⟩ => ⟨S600000x8x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S600000x8x1, .f32⟩
  | .hbm, ⟨52, _⟩ => ⟨S600000x8x1, .f32⟩
  | .hbm, ⟨53, _⟩ => ⟨S_, .f32⟩
  | .hbm, ⟨54, _⟩ => ⟨S600000x8x1, .f32⟩
  | .hbm, ⟨55, _⟩ => ⟨S600000x8x1, .f32⟩
  | .hbm, ⟨56, _⟩ => ⟨S600000x8x1, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x8x16, .f32⟩
  | .hbm, ⟨66, _⟩ => ⟨S600000x8x16, .f32⟩
  | .hbm, ⟨67, _⟩ => ⟨S600000x8x16, .f32⟩
  | .hbm, ⟨68, _⟩ => ⟨S_, .f32⟩
  | .hbm, ⟨69, _⟩ => ⟨S50000x8x16, .f32⟩
  | .hbm, ⟨70, _⟩ => ⟨S600000x1, .i32⟩
  | .hbm, ⟨71, _⟩ => ⟨S50000x8x16, .f32⟩
  | .hbm, ⟨72, _⟩ => ⟨S_, .f32⟩
  | .hbm, ⟨73, _⟩ => ⟨S50000x8x1, .f32⟩
  | .hbm, ⟨74, _⟩ => ⟨S600000x1, .i32⟩
  | .hbm, ⟨75, _⟩ => ⟨S50000x8x1, .f32⟩
  | .hbm, ⟨76, _⟩ => ⟨S_, .f32⟩
  | .hbm, ⟨77, _⟩ => ⟨S50000x8x1, .f32⟩
  | .hbm, ⟨78, _⟩ => ⟨S50000x8x1, .f32⟩
  | .hbm, ⟨79, _⟩ => ⟨S50000x8x16, .f32⟩
  | .hbm, ⟨80, _⟩ => ⟨S50000x8x16, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S1x128, .f32⟩
  | .hbm, ⟨111, _⟩ => ⟨S50000x128, .f32⟩
  | .hbm, ⟨112, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩

abbrev nD : Nat := 1
abbrev τ : Topo := Topo.v7x

variable {F : FTy → Type} [FloatOps F]

class Facts₀ : Prop where
  shapeCasts_S50000x128_S50000x8x16 : S50000x128.ShapeCasts S50000x8x16
  shapeCasts_S600000x128_S600000x8x16 : S600000x128.ShapeCasts S600000x8x16
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x8x16 : S_.BroadcastsInDim S600000x8x16 (![] : Fin 0 → Fin S600000x8x16.rank)
  reducesTo_S600000x8x16_S600000x8_d2 : S600000x8x16.ReducesTo [2] S600000x8
  h_S_ : 0 < S_.numel
  bcast_S600000x8_S600000x8x1_0_1 : S600000x8.BroadcastsInDim S600000x8x1 (![0, 1] : Fin 2 → Fin S600000x8x1.rank)
  bcast_S_S600000x8x1 : S_.BroadcastsInDim S600000x8x1 (![] : Fin 0 → Fin S600000x8x1.rank)
  bcast_S600000x8x1_S600000x8x16_0_1_2 : S600000x8x1.BroadcastsInDim S600000x8x16 (![0, 1, 2] : Fin 3 → Fin S600000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S600000x128_S128x128_S600000x128_1_0_0_1_n_n_wf : DotDims.WF S600000x128 S128x128 S600000x128 [1] [0] [0] [1] [] []
  gather_S50000x8x16_S600000x1_S600000x8x16_12_0_n_n_0_1_1816_wf : GatherDims.WF S50000x8x16 S600000x1 S600000x8x16 [1, 2] [0] [] [0] [] 1 ![1, 8, 16]
  scatter_S50000x8x16_S600000x1_S600000x8x16_12_0_0_1_wf : ScatterDims.WF S50000x8x16 S600000x1 S600000x8x16 [1, 2] [0] [0] 1
  scatter_S50000x8x1_S600000x1_S600000x8x1_12_0_0_1_wf : ScatterDims.WF S50000x8x1 S600000x1 S600000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x8x16_S600000x1_S600000x8x16_12_0_n_n_0_1_1816 : GatherDims S50000x8x16 S600000x1 S600000x8x16 where
  offsetDims := [1, 2]
  collapsedSliceDims := [0]
  operandBatchingDims := []
  startIndicesBatchingDims := []
  startIndexMap := [0]
  indexVectorDim := 1
  sliceSizes := ![1, 8, 16]
  wf := gather_S50000x8x16_S600000x1_S600000x8x16_12_0_n_n_0_1_1816_wf
def scatter_S50000x8x16_S600000x1_S600000x8x16_12_0_0_1 : ScatterDims S50000x8x16 S600000x1 S600000x8x16 where
  updateWindowDims := [1, 2]
  insertedWindowDims := [0]
  scatterDimsToOperandDims := [0]
  indexVectorDim := 1
  wf := scatter_S50000x8x16_S600000x1_S600000x8x16_12_0_0_1_wf
def scatter_S50000x8x1_S600000x1_S600000x8x1_12_0_0_1 : ScatterDims S50000x8x1 S600000x1 S600000x8x1 where
  updateWindowDims := [1, 2]
  insertedWindowDims := [0]
  scatterDimsToOperandDims := [0]
  indexVectorDim := 1
  wf := scatter_S50000x8x1_S600000x1_S600000x8x1_12_0_0_1_wf

class Facts : Prop extends Facts₀ where

variable [Facts]
-- ==== Proof.KI.Reg0.lean ====
import proofs.«430192_j18786186952966_1_alg».proof.Proof.Gen.KernelIdeal.Launch
import proofs.«430192_j18786186952966_1_alg».proof.Proof.Gen.KernelIdeal.Skeleton
import proofs.«430192_j18786186952966_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0

def out0_2 (x0 : Vec F S5000x128 .f32) (x1 : Vec F S128x384 .f32) : Vec F S5000x128 .f32 :=
  View.canon [⟨r0_0, k0_pay2 (View.ld x0 r0_0) (View.ld x1 r0_1)⟩]

def out0_3 (x0 : Vec F S5000x128 .f32) (x1 : Vec F S128x384 .f32) : Vec F S5000x128 .f32 :=
  View.canon [⟨r0_0, k0_pay3 (View.ld x0 r0_0) (View.ld x1 r0_1)⟩]

def out0_4 (x0 : Vec F S5000x128 .f32) (x1 : Vec F S128x384 .f32) : Vec F S5000x128 .f32 :=
  View.canon [⟨r0_0, k0_pay4 (View.ld x0 r0_0) (View.ld x1 r0_1)⟩]

set_option maxHeartbeats 1000000 in

theorem sound_kernel0 (c : Dev nD) (E : Set ℕ) (i : grid0.Coords)
    (arg1 : Memref sig .tc .vmem S5000x128 .f32) (harg1 : arg1.IsWhole)
    (arg2 : Memref sig .tc .vmem S128x384 .f32) (harg2 : arg2.IsWhole)
    (arg3 : Memref sig .tc .vmem S5000x128 .f32) (harg3 : arg3.IsWhole)
    (arg4 : Memref sig .tc .vmem S5000x128 .f32) (harg4 : arg4.IsWhole)
    (arg5 : Memref sig .tc .vmem S5000x128 .f32) (harg5 : arg5.IsWhole)
    (x0 : Vec F S5000x128 .f32) (x1 : Vec F S128x384 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_kernel i arg1 harg1 arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]; swap; isplitl [H1]; swap; isplitl [H2]; swap; isplitl [H3]
  all_goals
    iexists _; isplitr
    swap; · iassumption
    ipureintro
    first | exact View.read_writes_eq_canon _ _ _ (View.cover_of_tiled _ S5000x128.size (by rfl)) | rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0 (c : Dev nD) : ∀ w : Fin cfg0.W, w.val < 2 → ∀ t d, (dat0 V c).before w t d = (dat0 V c).fetched w t d
  | ⟨0, _⟩, _, t, d | ⟨1, _⟩, _, t, d =>
    (dat0 V c).before_in_eq_fetched _ rfl (fun _ => rfl) (fun _ _ _ => rfl) (fun _ => rfl) t d
  | ⟨n + 2, _⟩, h, _, _ => absurd h (Nat.not_lt.2 (Nat.le_add_left 2 n))

theorem body_obligation0 (c : Dev nD) : BodyObligation (dat0 (F := F) V c) (defs₀ (F := F)) Variants.none () Set.univ := fun t => by
  rw [bigSep_W0, bigSep_W0]
  change _ ⊢ wp frame _ _ (bodyAt0 t) _
  simp only [before0 V c 0 (by decide), before0 V c 1 (by decide)]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro H
  isplitl [HΦ]; · iexact HΦ
  isplitl [Ho]; · iexact Ho
  iexact H

end Cert.KernelIdeal.Hand

end
-- ==== Proof.KI.Reg1.lean ====
import proofs.«430192_j18786186952966_1_alg».proof.Proof.Gen.KernelIdeal.Launch
import proofs.«430192_j18786186952966_1_alg».proof.Proof.Gen.KernelIdeal.Skeleton
import proofs.«430192_j18786186952966_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S8000x128 := Rect.unit (s := S8000x128) ![0, 0] S8000x128.size inb_S8000x128_S8000x128_0_0
abbrev r1_1 : Rect S128x128 := Rect.unit (s := S128x128) ![0, 0] S128x128.size inb_S128x128_S128x128_0_0

def out1_2 (x0 : Vec F S8000x128 .f32) (x1 : Vec F S128x128 .f32) : Vec F S8000x128 .f32 :=
  View.canon [⟨r1_0, k1_pay1 (View.ld x0 r1_0) (View.ld x1 r1_1)⟩]

set_option maxHeartbeats 1000000 in

theorem sound_kernel1 (c : Dev nD) (E : Set ℕ) (i : grid1.Coords)
    (arg1 : Memref sig .tc .vmem S8000x128 .f32) (harg1 : arg1.IsWhole)
    (arg2 : Memref sig .tc .vmem S128x128 .f32) (harg2 : arg2.IsWhole)
    (arg3 : Memref sig .tc .vmem S8000x128 .f32) (harg3 : arg3.IsWhole)
    (x0 : Vec F S8000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; swap; isplitl [H1]
  all_goals
    iexists _; isplitr
    swap; · iassumption
    ipureintro
    first | exact View.read_writes_eq_canon _ _ _ (View.cover_of_tiled _ S8000x128.size (by rfl)) | rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1_2 (iblk1 V c 0 t) (iblk1 V c 1 t) := by dsimp only [dat1]

theorem before1 (c : Dev nD) : ∀ w : Fin cfg1.W, w.val < 2 → ∀ t d, (dat1 V c).before w t d = (dat1 V c).fetched w t d
  | ⟨0, _⟩, _, t, d | ⟨1, _⟩, _, t, d =>
    (dat1 V c).before_in_eq_fetched _ rfl (fun _ => rfl) (fun _ _ _ => rfl) (fun _ => rfl) t d
  | ⟨2, _⟩, h, _, _ => absurd h (Nat.lt_irrefl 2)

theorem body_obligation1 (c : Dev nD) : BodyObligation (dat1 (F := F) V c) (defs₀ (F := F)) Variants.none () Set.univ := fun t => by
  rw [bigSep_W1, bigSep_W1]
  change _ ⊢ wp frame _ _ (bodyAt1 t) _
  simp only [before1 V c 0 (by decide), before1 V c 1 (by decide)]
  rw [show (dat1 V c).owesAt () t.succ = (dat1 V c).owesAt () t.castSucc from rfl]
  dsimp only [dat1]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro H
  isplitl [HΦ]; · iexact HΦ
  isplitl [Ho]; · iexact Ho
  iexact H

end Cert.KernelIdeal.Hand

end
-- ==== Proof.KI.Reg2.lean ====
import proofs.«430192_j18786186952966_1_alg».proof.Proof.Gen.KernelIdeal.Launch
import proofs.«430192_j18786186952966_1_alg».proof.Proof.Gen.KernelIdeal.Skeleton
import proofs.«430192_j18786186952966_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_big : Rect S8000x128 := Rect.unit (s := S8000x128) ![0, 0] S8000x128.size inb_S8000x128_S8000x128_0_0

abbrev r2_sum : Rect S128x8 := Rect.unit (s := S128x8) ![0, 0] S128x8.size inb_S128x8_S128x8_0_0

abbrev r2_spread : Rect S8x128 := Rect.unit (s := S8x128) ![0, 0] S8x128.size inb_S8x128_S8x128_0_0

abbrev r2_score : Rect S8000x8 := Rect.unit (s := S8000x8) ![0, 0] S8000x8.size inb_S8000x8_S8000x8_0_0

def out2_7 (x0 x1 x2 : Vec F S8000x128 .f32) (x4 : Vec F S128x8 .f32) : Vec F S8000x8 .f32 :=
  View.canon [⟨r2_score, k2_pay1 (View.ld x0 r2_big) (View.ld x1 r2_big) (View.ld x2 r2_big) (View.ld x4 r2_sum)⟩]

def out2_6 (x0 x1 x2 x3 : Vec F S8000x128 .f32) (x4 : Vec F S128x8 .f32) (x5 : Vec F S8x128 .f32) : Vec F S8000x128 .f32 :=
  View.canon [⟨r2_big, k2_pay2 (View.ld x0 r2_big) (View.ld x1 r2_big) (View.ld x2 r2_big) (View.ld x4 r2_sum) (View.ld x5 r2_spread) (View.ld x3 r2_big)⟩]

set_option maxHeartbeats 1000000 in

theorem sound_kernel2 (c : Dev nD) (E : Set ℕ) (i : grid2.Coords)
    (arg0 : Memref sig .tc .vmem S8000x128 .f32) (harg0 : arg0.IsWhole) (arg1 : Memref sig .tc .vmem S8000x128 .f32) (harg1 : arg1.IsWhole)
    (arg2 : Memref sig .tc .vmem S8000x128 .f32) (harg2 : arg2.IsWhole) (arg3 : Memref sig .tc .vmem S8000x128 .f32) (harg3 : arg3.IsWhole)
    (arg4 : Memref sig .tc .vmem S128x8 .f32) (harg4 : arg4.IsWhole) (arg5 : Memref sig .tc .vmem S8x128 .f32) (harg5 : arg5.IsWhole)
    (arg6 : Memref sig .tc .vmem S8000x128 .f32) (harg6 : arg6.IsWhole) (arg7 : Memref sig .tc .vmem S8000x8 .f32) (harg7 : arg7.IsWhole)
    (x0 x1 x2 x3 : Vec F S8000x128 .f32) (x4 : Vec F S128x8 .f32) (x5 : Vec F S8x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)
            ∗ owns (c : Thread nD τ) arg7 fullShare (out2_7 x0 x1 x2 x4)) -∗ K ⟨⟩))
      ⊢ wp frame (wpE (defs₀ (F := F)) Variants.none c none) E
          (cc2__score_msg_kernel i arg0 harg0 arg1 harg1 arg2 harg2 arg3 harg3 arg4 harg4 arg5 harg5 arg6 harg6 arg7 harg7) K := by
  simp only [cc2__score_msg_kernel_eq_skeleton]; unfold cc2__score_msg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]; swap; isplitl [H1]; swap; isplitl [H2]; swap; isplitl [H3]; swap; isplitl [H4]; swap; isplitl [H5]; swap; isplitl [H6]
  all_goals
    iexists _; isplitr
    swap; · iassumption
    ipureintro
    first | exact View.read_writes_eq_canon _ _ _ (View.cover_of_tiled _ S8000x128.size (by rfl)) | exact View.read_writes_eq_canon _ _ _ (View.cover_of_tiled _ S8000x8.size (by rfl)) | rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t
    = out2_7 (iblk2 V c 0 t) (iblk2 V c 1 t) (iblk2 V c 2 t) (iblk2 V c 4 t) := by dsimp only [dat2]

theorem before2 (c : Dev nD) : ∀ w : Fin cfg2.W, w.val < 6 → ∀ t d, (dat2 V c).before w t d = (dat2 V c).fetched w t d
  | ⟨0, _⟩, _, t, d | ⟨1, _⟩, _, t, d | ⟨2, _⟩, _, t, d | ⟨3, _⟩, _, t, d | ⟨4, _⟩, _, t, d | ⟨5, _⟩, _, t, d =>
    (dat2 V c).before_in_eq_fetched _ rfl (fun _ => rfl) (fun _ _ _ => rfl) (fun _ => rfl) t d
  | ⟨n + 6, _⟩, h, _, _ => absurd h (Nat.not_lt.2 (Nat.le_add_left 6 n))

theorem body_obligation2 (c : Dev nD) : BodyObligation (dat2 (F := F) V c) (defs₀ (F := F)) Variants.none () Set.univ := fun t => by
  rw [bigSep_W2, bigSep_W2]
  change _ ⊢ wp frame _ _ (bodyAt2 t) _
  simp only [before2 V c 0 (by decide), before2 V c 1 (by decide), before2 V c 2 (by decide), before2 V c 3 (by decide), before2 V c 4 (by decide), before2 V c 5 (by decide)]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro H
  isplitl [HΦ]; · iexact HΦ
  isplitl [Ho]; · iexact Ho
  iexact H

end Cert.KernelIdeal.Hand

end
-- ==== Proof.KI.Reg3.lean ====
import proofs.«430192_j18786186952966_1_alg».proof.Proof.Gen.KernelIdeal.Launch
import proofs.«430192_j18786186952966_1_alg».proof.Proof.Gen.KernelIdeal.Skeleton
import proofs.«430192_j18786186952966_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1

theorem hcond3_1 : ∀ t : Fin cfg3.N, cond3_1 (grid3.coords t) ↔ t.val = 9 :=
  (by decide +kernel : ∀ t : Fin grid3.N, cond3_1 (grid3.coords t) ↔ t.val = 9)

theorem cover3 (p : Vec F S1x128 .f32) (L : List (View.Piece (Elt F) S1x128 .f32)) (y : S1x128.Idx) :
    ∃ pc ∈ ((⟨Rect.unit (s := S1x128) ![0, 0] S1x128.size inb_S1x128_S1x128_0_0, p⟩ : View.Piece (Elt F) S1x128 .f32) :: L), y ∈ pc.1.set :=
  ⟨_, List.Mem.head _, View.mem_set_unit_zero hz3 inb_S1x128_S1x128_0_0 y⟩

section Run

variable (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)

set_option maxHeartbeats 1000000 in

theorem run3_A
    (hc0 : cond3_0 i) (hc1 : ¬cond3_1 i)
    (x0 : Vec F S5000x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k3_pay4 x0 (k3_pay1 (F := F))) ∗ owns (c : Thread nD τ) arg5 fullShare (k3_pay5 x0 (k3_pay2 (F := F)))) -∗ K ⟨⟩))
      ⊢ wp frame (wpE (defs₀ (F := F)) Variants.none c none) E (cc3__bn_stats_kernel i arg1 harg1 arg2 harg2 arg3 harg3 arg4 harg4 arg5 harg5) K := by
  simp only [cc3__bn_stats_kernel_eq_skeleton]; unfold cc3__bn_stats_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  obtain rfl := harg1.eq_unread hf0
  sl_exec (disch := first | exact hc0 | exact hc1)
  sl_step
  iapply Hk
  isplitl [H0]; swap; isplitl [H1]; swap; isplitl [H2]; swap; isplitl [H4]
  all_goals
    iexists _; isplitr
    swap; · iassumption
    ipureintro
    first
      | assumption
      | sl_unfold_words
        rw [View.read_writes_eq_canon _ _ _ (cover3 _ _), View.canon_cons_unit_zero (S := S1x128) hz3, View.readCov_unit_zero (S := S1x128) _ hz3]
        simp only [View.readAt_eq_ld, harg1.read_unread, harg4.read_unread, harg5.read_unread, View.ld_unit_zero (S := S5000x128) hz3, View.ld_unit_zero (S := S1x128) hz3]

set_option maxHeartbeats 1000000 in

theorem run3_B
    (hc0 : ¬cond3_0 i) (hc1 : ¬cond3_1 i)
    (x0 : Vec F S5000x128 .f32) (xi1 xi2 xs4 xs5 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs4 ∗ owns (c : Thread nD τ) arg5 fullShare xs5
        ∗ (iprop(owns (c : Thread nD τ) arg1 fullShare x0 ∗ owns (c : Thread nD τ) arg2 fullShare xi1 ∗ owns (c : Thread nD τ) arg3 fullShare xi2
            ∗ owns (c : Thread nD τ) arg4 fullShare (k3_pay4 x0 xs4) ∗ owns (c : Thread nD τ) arg5 fullShare (k3_pay5 x0 xs5)) -∗ K ⟨⟩))
      ⊢ wp frame (wpE (defs₀ (F := F)) Variants.none c none) E (cc3__bn_stats_kernel i arg1 harg1 arg2 harg2 arg3 harg3 arg4 harg4 arg5 harg5) K := by
  simp only [cc3__bn_stats_kernel_eq_skeleton]; unfold cc3__bn_stats_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  obtain rfl := harg1.eq_unread hf0; obtain rfl := harg4.eq_unread hf4; obtain rfl := harg5.eq_unread hf5
  sl_exec (disch := first | exact hc0 | exact hc1)
  sl_step
  iapply Hk
  isplitl [H0]; swap; isplitl [H1]; swap; isplitl [H2]; swap; isplitl [H4]
  all_goals
    iexists _; isplitr
    swap; · iassumption
    ipureintro
    first
      | assumption
      | sl_unfold_words
        rw [View.read_writes_eq_canon _ _ _ (cover3 _ _), View.canon_unit_zero hz3]
        simp only [View.readAt_eq_ld, harg1.read_unread, harg4.read_unread, harg5.read_unread, View.ld_unit_zero (S := S5000x128) hz3, View.ld_unit_zero (S := S1x128) hz3]

set_option maxHeartbeats 1000000 in

theorem run3_C
    (hc0 : ¬cond3_0 i) (hc1 : cond3_1 i)
    (x0 : Vec F S5000x128 .f32) (xs4 xs5 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs4 ∗ owns (c : Thread nD τ) arg5 fullShare xs5
        ∗ (iprop(owns (c : Thread nD τ) arg1 fullShare x0 ∗ owns (c : Thread nD τ) arg2 fullShare (k3_pay4 x0 xs4) ∗ owns (c : Thread nD τ) arg3 fullShare (k3_pay5 x0 xs5)
            ∗ owns (c : Thread nD τ) arg4 fullShare (k3_pay4 x0 xs4) ∗ owns (c : Thread nD τ) arg5 fullShare (k3_pay5 x0 xs5)) -∗ K ⟨⟩))
      ⊢ wp frame (wpE (defs₀ (F := F)) Variants.none c none) E (cc3__bn_stats_kernel i arg1 harg1 arg2 harg2 arg3 harg3 arg4 harg4 arg5 harg5) K := by
  simp only [cc3__bn_stats_kernel_eq_skeleton]; unfold cc3__bn_stats_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  obtain rfl := harg1.eq_unread hf0; obtain rfl := harg4.eq_unread hf4; obtain rfl := harg5.eq_unread hf5
  sl_exec (disch := first | exact hc0 | exact hc1)
  sl_step
  iapply Hk
  isplitl [H0]; swap; isplitl [H1]; swap; isplitl [H2]; swap; isplitl [H4]
  all_goals
    iexists _; isplitr
    swap; · iassumption
    ipureintro
    first
      | assumption
      | sl_unfold_words
        first | rw [View.read_writes_eq_canon _ _ _ (cover3 _ _), View.canon_unit_zero hz3, View.readCov_unit_zero (S := S1x128) _ hz3] | rw [View.read_writes_eq_canon _ _ _ (cover3 _ _), View.canon_unit_zero hz3]
        simp only [View.readAt_eq_ld, harg1.read_unread, harg4.read_unread, harg5.read_unread, View.ld_unit_zero (S := S5000x128) hz3, View.ld_unit_zero (S := S1x128) hz3]

end Run

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem liveAt3_0 : ∀ t : Fin cfg3.N, cfg3.idle 0 (grid3.coords t) = false := by decide +kernel

theorem idleAt3_1 : ∀ t : Fin cfg3.N, ¬t.val = 9 → cfg3.idle 1 (grid3.coords t) = true := by decide +kernel
theorem idleAt3_2 : ∀ t : Fin cfg3.N, ¬t.val = 9 → cfg3.idle 2 (grid3.coords t) = true := by decide +kernel

theorem noFlush3_1 : ∀ t : Fin cfg3.N, ¬t.val = 9 → (cfg3.win 1).flush t = false :=
  (by decide +kernel : ∀ t : Fin grid3.N, ¬t.val = 9 → win3_1.flush t = false)
theorem noFlush3_2 : ∀ t : Fin cfg3.N, ¬t.val = 9 → (cfg3.win 2).flush t = false :=
  (by decide +kernel : ∀ t : Fin grid3.N, ¬t.val = 9 → win3_2.flush t = false)

theorem liveAt3_1 : ∀ t : Fin cfg3.N, t.val = 9 → cfg3.idle 1 (grid3.coords t) = false := by decide +kernel
theorem liveAt3_2 : ∀ t : Fin cfg3.N, t.val = 9 → cfg3.idle 2 (grid3.coords t) = false := by decide +kernel

def acc3 (c : Dev nD) : (n : ℕ) → n < cfg3.N → Vec F S1x128 .f32 × Vec F S1x128 .f32
  | 0, h => (k3_pay4 (iblk3 V c 0 ⟨0, h⟩) (k3_pay1 (F := F)), k3_pay5 (iblk3 V c 0 ⟨0, h⟩) (k3_pay2 (F := F)))
  | n + 1, h => (k3_pay4 (iblk3 V c 0 ⟨n + 1, h⟩) (acc3 c n (Nat.lt_of_succ_lt h)).1, k3_pay5 (iblk3 V c 0 ⟨n + 1, h⟩) (acc3 c n (Nat.lt_of_succ_lt h)).2)

theorem acc3_zero (c : Dev nD) (h : 0 < cfg3.N) :
    acc3 V c 0 h = (k3_pay4 (iblk3 V c 0 ⟨0, h⟩) (k3_pay1 (F := F)), k3_pay5 (iblk3 V c 0 ⟨0, h⟩) (k3_pay2 (F := F))) := rfl

theorem acc3_succ (c : Dev nD) (n : ℕ) (h : n + 1 < cfg3.N) :
    acc3 V c (n + 1) h = (k3_pay4 (iblk3 V c 0 ⟨n + 1, h⟩) (acc3 V c n (by omega)).1, k3_pay5 (iblk3 V c 0 ⟨n + 1, h⟩) (acc3 V c n (by omega)).2) := rfl

theorem acc3_first (c : Dev nD) (t : Fin cfg3.N) (h0 : t.val = 0) :
    acc3 V c t.val t.isLt = (k3_pay4 (iblk3 V c 0 t) (k3_pay1 (F := F)), k3_pay5 (iblk3 V c 0 t) (k3_pay2 (F := F))) := by
  obtain ⟨n, hn⟩ := t
  cases n with
  | zero => rfl
  | succ n => exact absurd h0 (Nat.succ_ne_zero n)

theorem acc3_later (c : Dev nD) (t : Fin cfg3.N) (h0 : ¬t.val = 0) :
    acc3 V c t.val t.isLt = (k3_pay4 (iblk3 V c 0 t) (acc3 V c (t.val - 1) (Nat.lt_of_le_of_lt (Nat.sub_le _ _) t.isLt)).1, k3_pay5 (iblk3 V c 0 t) (acc3 V c (t.val - 1) (Nat.lt_of_le_of_lt (Nat.sub_le _ _) t.isLt)).2) := by
  obtain ⟨n, hn⟩ := t
  cases n with
  | zero => exact absurd rfl h0
  | succ n => rfl

abbrev scM3_0 : Memref sig .tc .vmem S1x128 .f32 := Memref.whole cc3_scratch0
abbrev scM3_1 : Memref sig .tc .vmem S1x128 .f32 := Memref.whole cc3_scratch1

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

def PhiS3 (c : Dev nD) : (n : ℕ) → n ≤ cfg3.N → sProp 𝕄
  | 0, _ => Pipeline.ΦA spec3 c
  | n + 1, hn => iprop(iprop(iprop(owns (c : Thread nD τ) scM3_0 fullShare ((acc3 V c n hn).1) ∗ owns (c : Thread nD τ) scM3_1 fullShare ((acc3 V c n hn).2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((acc3 V c n hn).1) ∗ owns (c : Thread nD τ) scM3_1 fullShare ((acc3 V c n hn).2))
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((acc3 V c (n - 1) (by omega)).1) ∗ owns (c : Thread nD τ) scM3_1 fullShare ((acc3 V c (n - 1) (by omega)).2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (acc3 V c t.val t.isLt).1
    | ⟨2, _⟩ => (acc3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = (acc3 V c t.val t.isLt).1 := by dsimp only [dat3]
theorem after3_2 (c : Dev nD) (t : Fin cfg3.N) : (dat3 V c).after 2 t = (acc3 V c t.val t.isLt).2 := by dsimp only [dat3]

theorem after3_1_last (c : Dev nD) (t : Fin cfg3.N) (ht : t.val = 9) :
    (dat3 V c).after 1 t = (acc3 V c 9 (by have : cfg3.N = 10 := N_3; omega)).1 := by
  rw [after3_1]; obtain ⟨n, hn⟩ := t; subst ht; rfl
theorem after3_2_last (c : Dev nD) (t : Fin cfg3.N) (ht : t.val = 9) :
    (dat3 V c).after 2 t = (acc3 V c 9 (by have : cfg3.N = 10 := N_3; omega)).2 := by
  rw [after3_2]; obtain ⟨n, hn⟩ := t; subst ht; rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl

theorem leavesExact_live3 {c : Dev nD} (dat : Dat τ (Elt F) Unit ℕ (UR sig nD τ) ℕ cfg3 c) (w : Fin cfg3.W) (t : Fin cfg3.N)
    (h : cfg3.idle w (cfg3.grid.coords t) = false) :
    dat.leavesExact w t = owns (c : Thread nD τ) ((cfg3.win w).stage (cfg3.slots t w)) fullShare (dat.after w t) := by
  unfold Dat.leavesExact; rw [h]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = PhiS3 V c (t.val + 1) t.isLt from rfl, PhiS3_succ]
  rw [leavesExact_live3 _ 0 t (liveAt3_0 t), after3_0]
  have hc0 := hcond3_0 t
  have hc1 := hcond3_1 t
  by_cases h0 : t.val = 0
  on_goal 2 => by_cases h9 : t.val = 9
  on_goal 3 =>
    rw [Dat.leavesExact_idle (dat3 V c) 1 t (idleAt3_1 t h9) (noFlush3_1 t h9),
      Dat.leavesExact_idle (dat3 V c) 2 t (idleAt3_2 t h9) (noFlush3_2 t h9)]
    rw [acc3_later V c t h0]; dsimp only
    rw [PhiS3_castSucc V c t, PhiS3_pos V c _ _ h0]
    iintro ⟨⟨⟨⟨HS0, HS1⟩, HR⟩, Hg⟩, Ho, ⟨%d0, H0⟩, ⟨%d1, H1⟩, ⟨%d2, H2⟩⟩
    iapply (run3_B c (grid3.coords t) _ _ _ _ _ _ _ _ _ _ (fun h => h0 (hc0.mp h)) (fun h => h9 (hc1.mp h)) (iblk3 V c 0 t) _ _ _ _ Set.univ _)
  on_goal 2 =>
    rw [leavesExact_live3 _ 1 t (liveAt3_1 t h9), after3_1, leavesExact_live3 _ 2 t (liveAt3_2 t h9), after3_2]
    rw [acc3_later V c t h0]; dsimp only
    rw [PhiS3_castSucc V c t, PhiS3_pos V c _ _ h0]
    iintro ⟨⟨⟨⟨HS0, HS1⟩, HR⟩, Hg⟩, Ho, ⟨%d0, H0⟩, ⟨%d1, H1⟩, ⟨%d2, H2⟩⟩
    iapply (run3_C c (grid3.coords t) _ _ _ _ _ _ _ _ _ _ (fun h => h0 (hc0.mp h)) (hc1.mpr h9) (iblk3 V c 0 t) _ _ Set.univ _)
  on_goal 1 =>
    have h9 : ¬t.val = 9 := by omega
    rw [Dat.leavesExact_idle (dat3 V c) 1 t (idleAt3_1 t h9) (noFlush3_1 t h9),
      Dat.leavesExact_idle (dat3 V c) 2 t (idleAt3_2 t h9) (noFlush3_2 t h9)]
    rw [acc3_first V c t h0]; dsimp only
    rw [PhiS3_castSucc V c t, PhiS3_zero V c _ _ h0, PhiA3_eq]
    iintro ⟨⟨⟨⟨HS0, HS1⟩, HR⟩, Hg⟩, Ho, ⟨%d0, H0⟩, ⟨%d1, H1⟩, ⟨%d2, H2⟩⟩
    iapply (run3_A c (grid3.coords t) _ _ _ _ _ _ _ _ _ _ (hc0.mpr h0) (fun h => h9 (hc1.mp h)) (iblk3 V c 0 t) _ _ Set.univ _)
  all_goals
    isplitl [H0]; · iexact H0
    isplitl [H1]; · first | iexact H1 | (iexists _; iexact H1)
    isplitl [H2]; · first | iexact H2 | (iexists _; iexact H2)
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]
          · iexact HS0
          iexact HS1
        iexact HR
      iexact Hg
    isplitl [Ho]; · iexact Ho
    isplitl [H0]; · iexact H0
    isplitl [H1]; · first | iexact H1 | (iexists _; iexact H1)
    first | iexact H2 | (iexists _; iexact H2)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout3 (c : Dev nD) : (dat3 V c).Φ (Fin.last cfg3.N) ⊢ Pipeline.ΦA spec3 c :=
  Phi_out3 V c _ (by rw [Fin.val_last]; have : cfg3.N = 10 := N_3; omega)

end Cert.KernelIdeal.Hand

end
-- ==== Proof.KI.Reg4.lean ====
import proofs.«430192_j18786186952966_1_alg».proof.Proof.Gen.KernelIdeal.Launch
import proofs.«430192_j18786186952966_1_alg».proof.Proof.Gen.KernelIdeal.Skeleton
import proofs.«430192_j18786186952966_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_big : Rect S5000x128 := Rect.unit (s := S5000x128) ![0, 0] S5000x128.size inb_S5000x128_S5000x128_0_0

abbrev r4_row : Rect S1x128 := Rect.unit (s := S1x128) ![0, 0] S1x128.size inb_S1x128_S1x128_0_0

def out4_5 (x0 : Vec F S5000x128 .f32) (x1 x2 x3 x4 : Vec F S1x128 .f32) : Vec F S5000x128 .f32 :=
  View.canon [⟨r4_big, k4_pay1 (View.ld x0 r4_big) (View.ld x1 r4_row) (View.ld x2 r4_row) (View.ld x3 r4_row) (View.ld x4 r4_row)⟩]

set_option maxHeartbeats 1000000 in

theorem sound_kernel4 (c : Dev nD) (E : Set ℕ) (i : grid4.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out4_5 x0 x1 x2 x3 x4)) -∗ K ⟨⟩))
      ⊢ wp frame (wpE (defs₀ (F := F)) Variants.none c none) E (cc4__bn_norm_kernel i arg0 harg0 arg1 harg1 arg2 harg2 arg3 harg3 arg4 harg4 arg5 harg5) K := by
  simp only [cc4__bn_norm_kernel_eq_skeleton]; unfold cc4__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; swap; isplitl [H1]; swap; isplitl [H2]; swap; isplitl [H3]; swap; isplitl [H4]
  all_goals
    iexists _; isplitr
    swap; · iassumption
    ipureintro
    first | exact View.read_writes_eq_canon _ _ _ (View.cover_of_tiled _ S5000x128.size (by rfl)) | rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

theorem before4 (c : Dev nD) : ∀ w : Fin cfg4.W, w.val < 5 → ∀ t d, (dat4 V c).before w t d = (dat4 V c).fetched w t d
  | ⟨0, _⟩, _, t, d | ⟨1, _⟩, _, t, d | ⟨2, _⟩, _, t, d | ⟨3, _⟩, _, t, d | ⟨4, _⟩, _, t, d =>
    (dat4 V c).before_in_eq_fetched _ rfl (fun _ => rfl) (fun _ _ _ => rfl) (fun _ => rfl) t d
  | ⟨n + 5, _⟩, h, _, _ => absurd h (Nat.not_lt.2 (Nat.le_add_left 5 n))

theorem body_obligation4 (c : Dev nD) : BodyObligation (dat4 (F := F) V c) (defs₀ (F := F)) Variants.none () Set.univ := fun t => by
  rw [bigSep_W4, bigSep_W4]
  change _ ⊢ wp frame _ _ (bodyAt4 t) _
  simp only [before4 V c 0 (by decide), before4 V c 1 (by decide), before4 V c 2 (by decide), before4 V c 3 (by decide), before4 V c 4 (by decide)]
  rw [show (dat4 V c).owesAt () t.succ = (dat4 V c).owesAt () t.castSucc from rfl]
  dsimp only [dat4]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro H
  isplitl [HΦ]; · iexact HΦ
  isplitl [Ho]; · iexact Ho
  iexact H

end Cert.KernelIdeal.Hand

end
-- ==== Proof.KI.Data.lean ====
import proofs.«430192_j18786186952966_1_alg».proof.Proof.KI.Reg0
import proofs.«430192_j18786186952966_1_alg».proof.Proof.KI.Reg1
import proofs.«430192_j18786186952966_1_alg».proof.Proof.KI.Reg2
import proofs.«430192_j18786186952966_1_alg».proof.Proof.KI.Reg3
import proofs.«430192_j18786186952966_1_alg».proof.Proof.KI.Reg4
import proofs.«430192_j18786186952966_1_alg».proof.Proof.Gen.KernelIdeal.Regions

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev En0 : (c : Dev nD) → (b : Ref sig .tc) → Buf (Elt F) ((c : Thread nD τ).loc b) := atTc (fun c => Gen.V1 m c)

def X2 (c : Dev nD) : Valuation τ sig (Elt F) :=
  Pipeline.withArrays spec0 c (Gen.V1 m c) fun w => (dat0 (En0 m) c).arrAt w cfg0.N

def O2 : Gen.Outs (F := F) := fun _ r c => X2 m c r

abbrev En1 : (c : Dev nD) → (b : Ref sig .tc) → Buf (Elt F) ((c : Thread nD τ).loc b) := atTc (fun c => Gen.V2 m (O2 m) c)
def X3 (c : Dev nD) : Valuation τ sig (Elt F) :=
  Pipeline.withArrays spec1 c (Gen.V2 m (O2 m) c) fun w => (dat1 (En1 m) c).arrAt w cfg1.N
def O3 : Gen.Outs (F := F) := fun j r c => if j = 2 then X2 m c r else X3 m c r

abbrev En2 : (c : Dev nD) → (b : Ref sig .tc) → Buf (Elt F) ((c : Thread nD τ).loc b) := atTc (fun c => Gen.V7 m (O3 m) c)
def X8 (c : Dev nD) : Valuation τ sig (Elt F) :=
  Pipeline.withArrays spec2 c (Gen.V7 m (O3 m) c) fun w => (dat2 (En2 m) c).arrAt w cfg2.N
def O8 : Gen.Outs (F := F) := fun j r c => if j = 2 then X2 m c r else if j = 3 then X3 m c r else X8 m c r

abbrev En3 : (c : Dev nD) → (b : Ref sig .tc) → Buf (Elt F) ((c : Thread nD τ).loc b) := atTc (fun c => Gen.V9 m (O8 m) c)
def X10 (c : Dev nD) : Valuation τ sig (Elt F) :=
  Pipeline.withArrays spec3 c (Gen.V9 m (O8 m) c) fun w => (dat3 (En3 m) c).arrAt w cfg3.N
def O10 : Gen.Outs (F := F) := fun j r c =>
  if j = 2 then X2 m c r else if j = 3 then X3 m c r else if j = 8 then X8 m c r else X10 m c r

abbrev En4 : (c : Dev nD) → (b : Ref sig .tc) → Buf (Elt F) ((c : Thread nD τ).loc b) := atTc (fun c => Gen.V11 m (O10 m) c)
def X12 (c : Dev nD) : Valuation τ sig (Elt F) :=
  Pipeline.withArrays spec4 c (Gen.V11 m (O10 m) c) fun w => (dat4 (En4 m) c).arrAt w cfg4.N

def outs : Gen.Outs (F := F) := fun j r c =>
  if j = 2 then X2 m c r else if j = 3 then X3 m c r else if j = 8 then X8 m c r else if j = 10 then X10 m c r else X12 m c r

abbrev Ent0 (c : Dev nD) : Valuation τ sig (Elt F) := Gen.V1 m c
abbrev Ext0 (c : Dev nD) : Valuation τ sig (Elt F) := Gen.V2 m (outs m) c
abbrev Ent1 (c : Dev nD) : Valuation τ sig (Elt F) := Gen.V2 m (outs m) c
abbrev Ext1 (c : Dev nD) : Valuation τ sig (Elt F) := Gen.V3 m (outs m) c
abbrev Ent2 (c : Dev nD) : Valuation τ sig (Elt F) := Gen.V7 m (outs m) c
abbrev Ext2 (c : Dev nD) : Valuation τ sig (Elt F) := Gen.V8 m (outs m) c
abbrev Ent3 (c : Dev nD) : Valuation τ sig (Elt F) := Gen.V9 m (outs m) c
abbrev Ext3 (c : Dev nD) : Valuation τ sig (Elt F) := Gen.V10 m (outs m) c
abbrev Ent4 (c : Dev nD) : Valuation τ sig (Elt F) := Gen.V11 m (outs m) c
abbrev Ext4 (c : Dev nD) : Valuation τ sig (Elt F) := Gen.V12 m (outs m) c

-- Each valuation reads the outputs only at the regions before it, so it does not change when those agree.
theorem V2_congr (o o' : Gen.Outs (F := F)) (c : Dev nD) (h2 : ∀ r, o 2 r c = o' 2 r c) : Gen.V2 m o c = Gen.V2 m o' c := by
  simp only [Gen.V2, h2]
theorem V3_congr (o o' : Gen.Outs (F := F)) (c : Dev nD) (h2 : ∀ r, o 2 r c = o' 2 r c) (h3 : ∀ r, o 3 r c = o' 3 r c) :
    Gen.V3 m o c = Gen.V3 m o' c := by
  simp only [Gen.V3, V2_congr m o o' c h2, h3]
theorem V7_congr (o o' : Gen.Outs (F := F)) (c : Dev nD) (h2 : ∀ r, o 2 r c = o' 2 r c) (h3 : ∀ r, o 3 r c = o' 3 r c) :
    Gen.V7 m o c = Gen.V7 m o' c := by
  simp only [Gen.V7, Gen.V6, Gen.V5, Gen.V4, V3_congr m o o' c h2 h3]
theorem V9_congr (o o' : Gen.Outs (F := F)) (c : Dev nD) (h2 : ∀ r, o 2 r c = o' 2 r c) (h3 : ∀ r, o 3 r c = o' 3 r c)
    (h8 : ∀ r, o 8 r c = o' 8 r c) : Gen.V9 m o c = Gen.V9 m o' c := by
  simp only [Gen.V9, Gen.V8, V7_congr m o o' c h2 h3, h8]
theorem V11_congr (o o' : Gen.Outs (F := F)) (c : Dev nD) (h2 : ∀ r, o 2 r c = o' 2 r c) (h3 : ∀ r, o 3 r c = o' 3 r c)
    (h8 : ∀ r, o 8 r c = o' 8 r c) (h10 : ∀ r, o 10 r c = o' 10 r c) : Gen.V11 m o c = Gen.V11 m o' c := by
  simp only [Gen.V11, Gen.V10, V9_congr m o o' c h2 h3 h8, h10]

theorem Ent0_eq (c : Dev nD) : Ent0 m c = Gen.V1 m c := rfl
theorem Ent1_eq (c : Dev nD) : Ent1 m c = Gen.V2 m (O2 m) c := V2_congr m _ _ c fun _ => rfl
theorem Ent2_eq (c : Dev nD) : Ent2 m c = Gen.V7 m (O3 m) c := V7_congr m _ _ c (fun _ => rfl) (fun _ => rfl)
theorem Ent3_eq (c : Dev nD) : Ent3 m c = Gen.V9 m (O8 m) c := V9_congr m _ _ c (fun _ => rfl) (fun _ => rfl) (fun _ => rfl)
theorem Ent4_eq (c : Dev nD) : Ent4 m c = Gen.V11 m (O10 m) c := V11_congr m _ _ c (fun _ => rfl) (fun _ => rfl) (fun _ => rfl) (fun _ => rfl)

def pdats : (p : Fin 5) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem X2_arr (c : Dev nD) (w : Fin cfg0.W) : X2 m c (Proc.devRef .tc (Pipeline.arrRef spec0 w)) = (dat0 (En0 m) c).arrAt w cfg0.N := by
  unfold X2; exact Pipeline.withArrays_arr spec0 launch0.win.arr_inj c _ _ w
theorem X3_arr (c : Dev nD) (w : Fin cfg1.W) : X3 m c (Proc.devRef .tc (Pipeline.arrRef spec1 w)) = (dat1 (En1 m) c).arrAt w cfg1.N := by
  unfold X3; exact Pipeline.withArrays_arr spec1 launch1.win.arr_inj c _ _ w
theorem X8_arr (c : Dev nD) (w : Fin cfg2.W) : X8 m c (Proc.devRef .tc (Pipeline.arrRef spec2 w)) = (dat2 (En2 m) c).arrAt w cfg2.N := by
  unfold X8; exact Pipeline.withArrays_arr spec2 launch2.win.arr_inj c _ _ w
theorem X10_arr (c : Dev nD) (w : Fin cfg3.W) : X10 m c (Proc.devRef .tc (Pipeline.arrRef spec3 w)) = (dat3 (En3 m) c).arrAt w cfg3.N := by
  unfold X10; exact Pipeline.withArrays_arr spec3 launch3.win.arr_inj c _ _ w
theorem X12_arr (c : Dev nD) (w : Fin cfg4.W) : X12 m c (Proc.devRef .tc (Pipeline.arrRef spec4 w)) = (dat4 (En4 m) c).arrAt w cfg4.N := by
  unfold X12; exact Pipeline.withArrays_arr spec4 launch4.win.arr_inj c _ _ w

theorem hF0 (c : Dev nD) (w : Fin cfg0.W) : (pdats m 0 c).arrAt w cfg0.N = Ext0 m c (Pipeline.arrRef spec0 w) := by
  match w with
  | ⟨0, _⟩ | ⟨1, _⟩ =>
    exact ((dat0 (En0 m) c).arrAt_in _ rfl _).trans ((A_eq0 (En0 m) c _).trans (Gen.V2_of m (outs m) c _ (by decide +revert)).symm)
  | ⟨2, _⟩ =>
    refine (X2_arr m c 2).symm.trans ?_
    show outs m 2 main_v1_0 c = Gen.V2 m (outs m) c main_v1_0
    simp only [Gen.V2, Function.update_self, Function.update_of_ne (StableHlo.devRef_ne_of_ne (by decide : (main_v1_0 : Ref sig .tc) ≠ main_v1_1)), Function.update_of_ne (StableHlo.devRef_ne_of_ne (by decide : (main_v1_0 : Ref sig .tc) ≠ main_v1_2))]
  | ⟨3, _⟩ =>
    refine (X2_arr m c 3).symm.trans ?_
    show outs m 2 main_v1_1 c = Gen.V2 m (outs m) c main_v1_1
    simp only [Gen.V2, Function.update_self, Function.update_of_ne (StableHlo.devRef_ne_of_ne (by decide : (main_v1_1 : Ref sig .tc) ≠ main_v1_2))]
  | ⟨4, _⟩ =>
    refine (X2_arr m c 4).symm.trans ?_
    show outs m 2 main_v1_2 c = Gen.V2 m (outs m) c main_v1_2
    simp only [Gen.V2, Function.update_self]

theorem hrest0 (c : Dev nD) : ∀ b, b ∉ Finset.univ.image (Pipeline.arrRef spec0) → Ext0 m c b = En0 m c b := fun b hb =>
  Gen.V2_of m (outs m) c b fun hmem => hb (by
    simp only [List.mem_cons, List.not_mem_nil, or_false] at hmem
    rcases hmem with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

theorem hF1 (c : Dev nD) (w : Fin cfg1.W) : (pdats m 1 c).arrAt w cfg1.N = Ext1 m c (Pipeline.arrRef spec1 w) := by
  match w with
  | ⟨0, _⟩ | ⟨1, _⟩ =>
    exact ((dat1 (En1 m) c).arrAt_in _ rfl _).trans ((A_eq1 (En1 m) c _).trans ((congrFun (Ent1_eq m c) _).symm.trans (Gen.V3_of m (outs m) c _ (by decide +revert)).symm))
  | ⟨2, _⟩ =>
    refine (X3_arr m c 2).symm.trans ?_
    show outs m 3 main_v2 c = Gen.V3 m (outs m) c main_v2
    simp only [Gen.V3, Function.update_self]

theorem hrest1 (c : Dev nD) : ∀ b, b ∉ Finset.univ.image (Pipeline.arrRef spec1) → Ext1 m c b = En1 m c b := fun b hb =>
  (Gen.V3_of m (outs m) c b fun hmem => hb (by
    simp only [List.mem_cons, List.not_mem_nil, or_false] at hmem
    rcases hmem with rfl
    exact Finset.mem_image.mpr ⟨2, Finset.mem_univ _, rfl⟩)).trans (congrFun (Ent1_eq m c) b)

set_option maxHeartbeats 4000000 in
theorem hF2 (c : Dev nD) (w : Fin cfg2.W) : (pdats m 2 c).arrAt w cfg2.N = Ext2 m c (Pipeline.arrRef spec2 w) := by
  match w with
  | ⟨0, _⟩ | ⟨1, _⟩ | ⟨2, _⟩ | ⟨3, _⟩ | ⟨4, _⟩ | ⟨5, _⟩ =>
    exact ((dat2 (En2 m) c).arrAt_in _ rfl _).trans ((A_eq2 (En2 m) c _).trans ((congrFun (Ent2_eq m c) _).symm.trans (Gen.V8_of m (outs m) c _ (by decide +revert)).symm))
  | ⟨6, _⟩ =>
    refine (X8_arr m c 6).symm.trans ?_
    show outs m 8 main_v10_0 c = Gen.V8 m (outs m) c main_v10_0
    simp only [Gen.V8, Function.update_self, Function.update_of_ne (StableHlo.devRef_ne_of_ne (by decide : (main_v10_0 : Ref sig .tc) ≠ main_v10_1))]
  | ⟨7, _⟩ =>
    refine (X8_arr m c 7).symm.trans ?_
    show outs m 8 main_v10_1 c = Gen.V8 m (outs m) c main_v10_1
    simp only [Gen.V8, Function.update_self]

theorem hrest2 (c : Dev nD) : ∀ b, b ∉ Finset.univ.image (Pipeline.arrRef spec2) → Ext2 m c b = En2 m c b := fun b hb =>
  (Gen.V8_of m (outs m) c b fun hmem => hb (by
    simp only [List.mem_cons, List.not_mem_nil, or_false] at hmem
    rcases hmem with rfl | rfl
    · exact Finset.mem_image.mpr ⟨6, Finset.mem_univ _, rfl⟩
    · exact Finset.mem_image.mpr ⟨7, Finset.mem_univ _, rfl⟩)).trans (congrFun (Ent2_eq m c) b)

theorem hF3 (c : Dev nD) (w : Fin cfg3.W) : (pdats m 3 c).arrAt w cfg3.N = Ext3 m c (Pipeline.arrRef spec3 w) := by
  match w with
  | ⟨0, _⟩ =>
    exact ((dat3 (En3 m) c).arrAt_in _ rfl _).trans ((A_eq3 (En3 m) c _).trans ((congrFun (Ent3_eq m c) _).symm.trans (Gen.V10_of m (outs m) c _ (by decide +revert)).symm))
  | ⟨1, _⟩ =>
    refine (X10_arr m c 1).symm.trans ?_
    show outs m 10 main_v25_0 c = Gen.V10 m (outs m) c main_v25_0
    simp only [Gen.V10, Function.update_self, Function.update_of_ne (StableHlo.devRef_ne_of_ne (by decide : (main_v25_0 : Ref sig .tc) ≠ main_v25_1))]
  | ⟨2, _⟩ =>
    refine (X10_arr m c 2).symm.trans ?_
    show outs m 10 main_v25_1 c = Gen.V10 m (outs m) c main_v25_1
    simp only [Gen.V10, Function.update_self]

theorem hrest3 (c : Dev nD) : ∀ b, b ∉ Finset.univ.image (Pipeline.arrRef spec3) → Ext3 m c b = En3 m c b := fun b hb =>
  (Gen.V10_of m (outs m) c b fun hmem => hb (by
    simp only [List.mem_cons, List.not_mem_nil, or_false] at hmem
    rcases hmem with rfl | rfl
    · exact Finset.mem_image.mpr ⟨1, Finset.mem_univ _, rfl⟩
    · exact Finset.mem_image.mpr ⟨2, Finset.mem_univ _, rfl⟩)).trans (congrFun (Ent3_eq m c) b)

set_option maxHeartbeats 4000000 in
theorem hF4 (c : Dev nD) (w : Fin cfg4.W) : (pdats m 4 c).arrAt w cfg4.N = Ext4 m c (Pipeline.arrRef spec4 w) := by
  match w with
  | ⟨0, _⟩ | ⟨1, _⟩ | ⟨2, _⟩ | ⟨3, _⟩ | ⟨4, _⟩ =>
    exact ((dat4 (En4 m) c).arrAt_in _ rfl _).trans ((A_eq4 (En4 m) c _).trans ((congrFun (Ent4_eq m c) _).symm.trans (Gen.V12_of m (outs m) c _ (by decide +revert)).symm))
  | ⟨5, _⟩ =>
    refine (X12_arr m c 5).symm.trans ?_
    show outs m 12 main_v34 c = Gen.V12 m (outs m) c main_v34
    simp only [Gen.V12, Function.update_self]

theorem hrest4 (c : Dev nD) : ∀ b, b ∉ Finset.univ.image (Pipeline.arrRef spec4) → Ext4 m c b = En4 m c b := fun b hb =>
  (Gen.V12_of m (outs m) c b fun hmem => hb (by
    simp only [List.mem_cons, List.not_mem_nil, or_false] at hmem
    rcases hmem with rfl
    exact Finset.mem_image.mpr ⟨5, Finset.mem_univ _, rfl⟩)).trans (congrFun (Ent4_eq m c) b)

theorem phiIn0 (c : Dev nD) : Pipeline.ΦA spec0 c ⊢ (pdats m 0 c).Φ 0 := .rfl
theorem phiOut0 (c : Dev nD) : (pdats m 0 c).Φ (Fin.last cfg0.N) ⊢ Pipeline.ΦA spec0 c := .rfl
theorem phiIn1 (c : Dev nD) : Pipeline.ΦA spec1 c ⊢ (pdats m 1 c).Φ 0 := .rfl
theorem phiOut1 (c : Dev nD) : (pdats m 1 c).Φ (Fin.last cfg1.N) ⊢ Pipeline.ΦA spec1 c := .rfl
theorem phiIn2 (c : Dev nD) : Pipeline.ΦA spec2 c ⊢ (pdats m 2 c).Φ 0 := .rfl
theorem phiOut2 (c : Dev nD) : (pdats m 2 c).Φ (Fin.last cfg2.N) ⊢ Pipeline.ΦA spec2 c := .rfl
theorem phiIn3 (c : Dev nD) : Pipeline.ΦA spec3 c ⊢ (pdats m 3 c).Φ 0 := hin3 (En3 m) c
theorem phiOut3 (c : Dev nD) : (pdats m 3 c).Φ (Fin.last cfg3.N) ⊢ Pipeline.ΦA spec3 c := hout3 (En3 m) c
theorem phiIn4 (c : Dev nD) : Pipeline.ΦA spec4 c ⊢ (pdats m 4 c).Φ 0 := .rfl
theorem phiOut4 (c : Dev nD) : (pdats m 4 c).Φ (Fin.last cfg4.N) ⊢ Pipeline.ΦA spec4 c := .rfl

end Cert.KernelIdeal.Hand

end
-- ==== Proof.KI.Seg.lean ====
import proofs.«430192_j18786186952966_1_alg».proof.Proof.KI.Data

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- One construction serves every region: only the region's own facts differ.
def regOf {p : Fin 5} (lf : Pipeline.LaunchFacts (nD := nD) (τ := τ) cfgs p) {V Ent Ext : Dev nD → Valuation τ sig (Elt F)}
    (hbody : ∀ c, Pipeline.BodyObligationLoose (pdats m p c) defs₀ 𝒱₀ () Set.univ)
    (howed : ∀ c t, (pdats m p c).owed t = 0) (hrec : ∀ c x, x ∈ (pdats m p c).recorded 0)
    (hshare : ∀ c w, (pdats m p c).share w = fullShare)
    (hA : ∀ c w, (pdats m p c).A w = atTc V c (Pipeline.arrRef (cfgs p).spec w))
    (hEnt : ∀ c, Ent c = V c)
    (hF : ∀ c w, (pdats m p c).arrAt w (cfgs p).N = Ext c (Pipeline.arrRef (cfgs p).spec w))
    (hrest : ∀ c b, b ∉ Finset.univ.image (Pipeline.arrRef (cfgs p).spec) → Ext c b = atTc V c b)
    (phiIn : ∀ c, Pipeline.ΦA (cfgs p).spec c ⊢ (pdats m p c).Φ 0)
    (phiOut : ∀ c, (pdats m p c).Φ (Fin.last (cfgs p).N) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Ent c) ∗ R c)
  post c := iprop(StableHlo.held (c : Thread nD τ) (Pipeline.ucRefs τ sig) (Ext c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc V c)
  hentry c := by
    rw [Pipeline.ownSems0_none, hEnt c]
    have hsplit := Pipeline.arrays_of_unscopedBufs (p := p) (pcfgs (F := F)) adm (pdats m) lf.win lf.arr_whole c
      (hshare c) (atTc V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c _)
      iexact HO
    isplitl [Hp]; · iexact Hp
    iexact Hrest
  hin c := by
    refine BIBase.Entails.trans ?_ (phiIn c)
    unfold Pipeline.ΦA
    iintro ⟨Hp, -, Hr⟩
    isplitl [Hr]; · iexact Hr
    iexact Hp
  hout c := by
    rw [Pipeline.ownSems0_none]
    refine BIBase.Entails.trans (phiOut c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) (hshare c) (atTc V c) (atTc (fun c => Ext c) c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 : Pipeline.RegionSeg (pcfgs (F := F)) adm (pdats m) () defs₀ 𝒱₀ L lv 0 :=
  regOf m launch0 (fun c => (body_obligation0 (En0 m) c).loose) (fun _ _ => rfl) (fun _ _ => trivial)
    (fun c => (pdats m 0 c).share_full fun _ => rfl) (fun _ _ => rfl) (Ent0_eq m) (hF0 m) (hrest0 m) (phiIn0 m) (phiOut0 m)

def reg1 : Pipeline.RegionSeg (pcfgs (F := F)) adm (pdats m) () defs₀ 𝒱₀ L lv 1 :=
  regOf m launch1 (fun c => (body_obligation1 (En1 m) c).loose) (fun _ _ => rfl) (fun _ _ => trivial)
    (fun c => (pdats m 1 c).share_full fun _ => rfl) (fun _ _ => rfl) (Ent1_eq m) (hF1 m) (hrest1 m) (phiIn1 m) (phiOut1 m)

def reg2 : Pipeline.RegionSeg (pcfgs (F := F)) adm (pdats m) () defs₀ 𝒱₀ L lv 2 :=
  regOf m launch2 (fun c => (body_obligation2 (En2 m) c).loose) (fun _ _ => rfl) (fun _ _ => trivial)
    (fun c => (pdats m 2 c).share_full fun _ => rfl) (fun _ _ => rfl) (Ent2_eq m) (hF2 m) (hrest2 m) (phiIn2 m) (phiOut2 m)

def reg3 : Pipeline.RegionSeg (pcfgs (F := F)) adm (pdats m) () defs₀ 𝒱₀ L lv 3 :=
  regOf m launch3 (fun c => (body_obligation3 (En3 m) c).loose) (fun _ _ => rfl) (fun _ _ => trivial)
    (fun c => (pdats m 3 c).share_full fun _ => rfl) (fun _ _ => rfl) (Ent3_eq m) (hF3 m) (hrest3 m) (phiIn3 m) (phiOut3 m)

def reg4 : Pipeline.RegionSeg (pcfgs (F := F)) adm (pdats m) () defs₀ 𝒱₀ L lv 4 :=
  regOf m launch4 (fun c => (body_obligation4 (En4 m) c).loose) (fun _ _ => rfl) (fun _ _ => trivial)
    (fun c => (pdats m 4 c).share_full fun _ => rfl) (fun _ _ => rfl) (Ent4_eq m) (hF4 m) (hrest4 m) (phiIn4 m) (phiOut4 m)

end Cert.KernelIdeal.Hand

end
-- ==== Proof.KI.RunCond.lean ====
import proofs.«430192_j18786186952966_1_alg».proof.Proof.Gen.KernelIdeal.Regions

set_option maxRecDepth 1164

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (Gen.V2 m outs c) ∗ E 1 c) ⊢ R1.pre c)
    (hpost1 : ∀ c : Dev nD, R1.post c ⊢ iprop(StableHlo.held (c : Thread nD τ) (Pipeline.ucRefs τ sig) (Gen.V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (Gen.V7 m outs c) ∗ E 2 c) ⊢ R2.pre c)
    (hpost2 : ∀ c : Dev nD, R2.post c ⊢ iprop(StableHlo.held (c : Thread nD τ) (Pipeline.ucRefs τ sig) (Gen.V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (Gen.V9 m outs c) ∗ E 3 c) ⊢ R3.pre c)
    (hpost3 : ∀ c : Dev nD, R3.post c ⊢ iprop(StableHlo.held (c : Thread nD τ) (Pipeline.ucRefs τ sig) (Gen.V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (Gen.V11 m outs c) ∗ E 4 c) ⊢ R4.pre c)
    (hpost4 : ∀ c : Dev nD, R4.post c ⊢ iprop(StableHlo.held (c : Thread nD τ) (Pipeline.ucRefs τ sig) (Gen.V12 m outs c) ∗ E 5 c)) :
    θ_run defs (onTc (τ := τ) (main (F := F))) ⟨m, fun _ => 0, ρ⟩ (fun r => ∀ c : Dev nD, ∀ b ∈ Pipeline.ucRefs τ sig,
      r.2.mem ((c : Thread nD τ).1, b) = Gen.V12 m outs c b) := by
  refine Pipeline.θ_run_regions_kit_dev (pcfgs (F := F)) adm pdats ι cellOf_inj EP defs₀ 𝒱₀ L lv m ρ main
    (Gen.segs m outs 𝒱₀ L lv E ι pdats R0 R1 R2 R3 R4)
    (fun c Q => by
      rewrite [Gen.main_chain c, Seg.run_eq_chain,
        show (Gen.segs m outs 𝒱₀ L lv E ι pdats R0 R1 R2 R3 R4 c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V12 m outs c))
    (hch := fun c => ⟨.rfl, hpre0 c, (hpost0 c).trans (hpre1 c), hpost1 c, .rfl, .rfl, .rfl, hpre2 c, hpost2 c, hpre3 c, hpost3 c, hpre4 c, (hpost4 c).trans (sep_mono .rfl (hE5 c))⟩)
    (hinit := ?_)
    (QY := fun c s => ∀ b ∈ Pipeline.ucRefs τ sig, s.mem ((c : Thread nD τ).1, b) = Gen.V12 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (Gen.V12 m outs c) s') $$ [Hh HSI]
    · isplitl [Hh] <;> iassumption
    icases Hr with ⟨%h, HSI⟩
    imodintro
    isplitr
    · ipureintro
      exact h
    · iexact HSI

end Cert.KernelIdeal.Hand

end
-- ==== Proof.KI.Run.lean ====
import proofs.«430192_j18786186952966_1_alg».proof.Proof.KI.Seg
import proofs.«430192_j18786186952966_1_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem launch_elem : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem first_rest : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem last_rest (c : Dev nD) : R (F := F) c ⊢ (iprop(∃ W, owes (c : Thread nD τ) (0 : CellTallies nD τ sig Unit) W) : sProp 𝕄) := by
  iintro ⟨-, H⟩; iexact H

theorem mem_uc (b : Ref sig .tc) (hb : ¬ (Proc.devRef (τ := τ) .tc b).isScoped) :
    Proc.devRef (τ := τ) .tc b ∈ Pipeline.ucRefs τ sig :=
  Finset.mem_filter.mpr ⟨StableHlo.devRef_mem_tcRefs b, hb⟩

/-- No item of @main writes an argument, so the last valuation has each at its launch contents. -/
theorem result : θ_run defs (onTc (τ := τ) (main (F := F))) ⟨m, fun _ => 0, ρ⟩ (fun r => ∀ c : Dev nD,
      r.2.mem ((c.tc : Thread nD τ).loc main_v34) = Gen.V12 m (outs m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_)
    (run_cond m emb₁ () 𝒱₀ L lv (fun _ _ => rfl) ρ (outs m) (pdats m) 0 (fun _ => (BI.emp : sProp 𝕄))
      (initOf (Pipeline.cells cfgs cellOf_inj) (Pipeline.launchToks cfgs cellOf_inj)) launch_elem
      (fun _ c => R c) (first_rest ρ) (fun c => last_rest c)
      (reg0 m) (fun _ => .rfl) (fun _ => .rfl) (reg1 m) (fun _ => .rfl) (fun _ => .rfl) (reg2 m) (fun _ => .rfl) (fun _ => .rfl)
      (reg3 m) (fun _ => .rfl) (fun _ => .rfl) (reg4 m) (fun _ => .rfl) (fun _ => .rfl))
  have k := fun (b : Ref sig .tc) (hb : ¬ (Proc.devRef (τ := τ) .tc b).isScoped) => h c _ (mem_uc b hb)
  exact ⟨k main_v34 (by decide),
    (k main_arg0 (by decide)).trans (Gen.V12_main_arg0 m _ c), (k main_arg1 (by decide)).trans (Gen.V12_main_arg1 m _ c),
    (k main_arg2 (by decide)).trans (Gen.V12_main_arg2 m _ c), (k main_arg3 (by decide)).trans (Gen.V12_main_arg3 m _ c),
    (k main_arg4 (by decide)).trans (Gen.V12_main_arg4 m _ c), (k main_arg5 (by decide)).trans (Gen.V12_main_arg5 m _ c),
    (k main_arg6 (by decide)).trans (Gen.V12_main_arg6 m _ c), (k main_arg7 (by decide)).trans (Gen.V12_main_arg7 m _ c),
    (k main_arg8 (by decide)).trans (Gen.V12_main_arg8 m _ c)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (result m ρ)

end Cert.KernelIdeal.Hand

end
-- ==== Proof.Same.lean ====
import proofs.«430192_j18786186952966_1_alg».proof.Defs
import proofs.«430192_j18786186952966_1_alg».proof.Proof.Gen.Kernel
import proofs.«430192_j18786186952966_1_alg».proof.Proof.Gen.KernelIdeal
import proofs.«430192_j18786186952966_1_alg».proof.Proof.Gen.Pre_finite_inputs
import proofs.«430192_j18786186952966_1_alg».proof.Proof.KI.Run

set_option maxRecDepth 16384
set_option maxHeartbeats 2000000

noncomputable section

namespace Cert.Same

open Idealize.ShloMosaic Idealize.SL.Sem

/-- The two programs are the same definitions under two names: label by label the kernel functions are the same terms. -/
theorem defs₀_eq : Cert.Kernel.defs₀ (F := Bits) = Cert.KernelIdeal.defs₀ (F := Bits) := by
  unfold Cert.Kernel.defs₀ Cert.KernelIdeal.defs₀
  refine congrArg _ (funext fun ℓ => funext fun x => ?_)
  match ℓ, x with
  | 0, (t, s) => rfl
  | 1, (t, s) => rfl
  | 2, (t, s) => rfl
  | 3, (t, s) => rfl
  | 4, (t, s) => rfl
  | ⟨_ + 5, h⟩, _ => exact absurd h (by omega)

theorem defs_eq : Cert.Kernel.defs (F := Bits) = Cert.KernelIdeal.defs (F := Bits) :=
  (congrArg (Pipeline.defs Cert.Kernel.pcfgs) defs₀_eq).trans rfl

/-- So the frame proved for every instance of the idealized program is the word-level program's frame. -/
theorem frame_Kernel : Cert.frame_Kernel := fun m ρ _ => by
  have h := Cert.KernelIdeal.Hand.frame (F := Bits) m ρ
  rw [← defs_eq] at h
  exact h

end Cert.Same

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (n k : Nat) := Fin n → Fin k → EReal

abbrev curry2 {n k : Nat} (a : (⟨2, ![n, k]⟩ : Shape).Idx → EReal) : Mat n k := fun i j => a (ix2 i j)
abbrev curry1 {n : Nat} (a : (⟨1, ![n]⟩ : Shape).Idx → EReal) : Fin n → EReal := fun i => a (ix1 i)

def rowOf (ei : IVec ⟨2, ![2, 600000]⟩ 32) (hr : ∀ i, (ei i).toNat < 50000) (r : Fin 2) (e : Fin 600000) : Fin 50000 :=
  ⟨(ei (ix2 r e)).toNat, hr _⟩

-- Column 16·h + j is the pair (head h, place j): 8 heads of 16 columns.
def hd (d : Fin 128) : Fin 8 := ⟨d.val / 16, by omega⟩
def lo (d : Fin 128) : Fin 16 := ⟨d.val % 16, by omega⟩
def col (h : Fin 8) (j : Fin 16) : Fin 128 := ⟨16 * h.val + j.val, by omega⟩

-- The literals −5, 5, 1/4, 16, the f32 nearest 1e-6 and 1e-5, and 50000, as the extended reals they denote.
def cM5 : EReal := Ideal.ofBits .f32 0xC0A00000#32
def c5 : EReal := Ideal.ofBits .f32 0x40A00000#32
def cQuarter : EReal := Ideal.ofBits .f32 0x3E800000#32
def c16 : EReal := Ideal.ofBits .f32 0x41800000#32
def cEps6 : EReal := Ideal.ofBits .f32 0x358637BD#32
def cEps5 : EReal := Ideal.ofBits .f32 0x3727C5AC#32
def cN : EReal := Ideal.ofBits .f32 0x47435000#32

def proj {n : Nat} (a : Mat n 128) (W : Mat 128 128) : Mat n 128 := fun i j => ∑ k : Fin 128, a i k * W k j

-- The 0/1 matrix of heads: 1 where column d belongs to head h.
def ind (d : Fin 128) (h : Fin 8) : EReal := if hd d = h then 1 else 0

section
variable (x : Mat 50000 128) (ea : Mat 600000 128) (WQ WK WV WE : Mat 128 128) (g b : Fin 128 → EReal)
  (src dst : Fin 600000 → Fin 50000)

-- The sum of f over the edges arriving at node n.
def segsum (dst : Fin 600000 → Fin 50000) (f : Fin 600000 → EReal) (n : Fin 50000) : EReal :=
  0 + ∑ e : Fin 600000, if dst e = n then f e else 0

-- First arrangement: 128 columns, heads summed and spread by the 0/1 matrix; variance as mean of squares minus squared mean.
namespace K
def score (e : Fin 600000) (h : Fin 8) : EReal :=
  Ideal.exp (min c5 (max cM5 (∑ d : Fin 128,
    (((proj x WK (src e) d * proj x WQ (dst e) d) * proj ea WE e d) * cQuarter) * ind d h)))
def msg (e : Fin 600000) (d : Fin 128) : EReal :=
  proj x WV (src e) d * ∑ h : Fin 8, score x ea WQ WK WE src dst e h * ind d h
def wV (n : Fin 50000) (d : Fin 128) : EReal := segsum dst (fun e => msg x ea WQ WK WV WE src dst e d) n
def Z (n : Fin 50000) (h : Fin 8) : EReal := segsum dst (fun e => score x ea WQ WK WE src dst e h) n
def hh (n : Fin 50000) (d : Fin 128) : EReal :=
  x n d + Ideal.div (wV x ea WQ WK WV WE src dst n d) (Z x ea WQ WK WE src dst n (hd d) + cEps6)
def mean (d : Fin 128) : EReal := Ideal.div (∑ n : Fin 50000, hh x ea WQ WK WV WE src dst n d) cN
def meanSq (d : Fin 128) : EReal :=
  Ideal.div (∑ n : Fin 50000, hh x ea WQ WK WV WE src dst n d * hh x ea WQ WK WV WE src dst n d) cN
def var (d : Fin 128) : EReal :=
  meanSq x ea WQ WK WV WE src dst d - mean x ea WQ WK WV WE src dst d * mean x ea WQ WK WV WE src dst d
def out (n : Fin 50000) (d : Fin 128) : EReal :=
  ((hh x ea WQ WK WV WE src dst n d - mean x ea WQ WK WV WE src dst d)
      * Ideal.rsqrt (var x ea WQ WK WV WE src dst d + cEps5)) * g d + b d
end K

-- Second arrangement: 8 × 16 columns; variance as the mean of the squared deviations.
namespace R
def score (e : Fin 600000) (h : Fin 8) : EReal :=
  Ideal.exp (min c5 (max cM5 (0 + ∑ j : Fin 16,
    Ideal.div (proj x WK (src e) (col h j) * proj x WQ (dst e) (col h j)) (Ideal.sqrt c16) * proj ea WE e (col h j))))
def msg (e : Fin 600000) (h : Fin 8) (j : Fin 16) : EReal :=
  proj x WV (src e) (col h j) * score x ea WQ WK WE src dst e h
def wV (n : Fin 50000) (h : Fin 8) (j : Fin 16) : EReal := segsum dst (fun e => msg x ea WQ WK WV WE src dst e h j) n
def Z (n : Fin 50000) (h : Fin 8) : EReal := segsum dst (fun e => score x ea WQ WK WE src dst e h) n
def hh (n : Fin 50000) (d : Fin 128) : EReal :=
  x n d + Ideal.div (wV x ea WQ WK WV WE src dst n (hd d) (lo d)) (Z x ea WQ WK WE src dst n (hd d) + cEps6)
def mean (d : Fin 128) : EReal := Ideal.div (0 + ∑ n : Fin 50000, hh x ea WQ WK WV WE src dst n d) cN
def var (d : Fin 128) : EReal :=
  Ideal.div (0 + ∑ n : Fin 50000,
    (hh x ea WQ WK WV WE src dst n d - mean x ea WQ WK WV WE src dst d)
      * (hh x ea WQ WK WV WE src dst n d - mean x ea WQ WK WV WE src dst d)) cN
def out (n : Fin 50000) (d : Fin 128) : EReal :=
  ((hh x ea WQ WK WV WE src dst n d - mean x ea WQ WK WV WE src dst d)
      * Ideal.rsqrt (var x ea WQ WK WV WE src dst d + cEps5)) * g d + b d
end R

end

end Cert.Spec

end
-- ==== Proof.KI.ValArgs.lean ====
import proofs.«430192_j18786186952966_1_alg».proof.Proof.Gen.KernelIdeal.Launch
import proofs.«430192_j18786186952966_1_alg».proof.Proof.Spec

noncomputable section

namespace Cert.KernelIdeal.ValV

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

abbrev aX : Mat 50000 128 := curry2 (m ((c.tc : Thread nD τ).loc main_arg0) : FVec Ideal S50000x128 .f32)
abbrev aEA : Mat 600000 128 := curry2 (m ((c.tc : Thread nD τ).loc main_arg1) : FVec Ideal S600000x128 .f32)
abbrev aWQ : Mat 128 128 := curry2 (m ((c.tc : Thread nD τ).loc main_arg2) : FVec Ideal S128x128 .f32)
abbrev aWK : Mat 128 128 := curry2 (m ((c.tc : Thread nD τ).loc main_arg3) : FVec Ideal S128x128 .f32)
abbrev aWV : Mat 128 128 := curry2 (m ((c.tc : Thread nD τ).loc main_arg4) : FVec Ideal S128x128 .f32)
abbrev aWE : Mat 128 128 := curry2 (m ((c.tc : Thread nD τ).loc main_arg5) : FVec Ideal S128x128 .f32)
abbrev aG : Fin 128 → EReal := curry1 (m ((c.tc : Thread nD τ).loc main_arg6) : FVec Ideal S128 .f32)
abbrev aB : Fin 128 → EReal := curry1 (m ((c.tc : Thread nD τ).loc main_arg7) : FVec Ideal S128 .f32)

abbrev aEI : IVec S2x600000 32 := (m ((c.tc : Thread nD τ).loc main_arg8) : IVec S2x600000 32)
abbrev aSrc (hr : ∀ i, (aEI m c i).toNat < 50000) : Fin 600000 → Fin 50000 := rowOf (aEI m c) hr 0
abbrev aDst (hr : ∀ i, (aEI m c i).toNat < 50000) : Fin 600000 → Fin 50000 := rowOf (aEI m c) hr 1

end Cert.KernelIdeal.ValV

end
-- ==== Proof.KI.Final3Math.lean ====
import proofs.«430192_j18786186952966_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin
import Mathlib.Data.Fintype.BigOperators
import Mathlib.Logic.Equiv.Fin.Basic

noncomputable section

open scoped BigOperators

namespace Cert.KernelIdeal.HandV

open Idealize.ShloMosaic
open Cert.KernelIdeal Cert.KernelIdeal.Gen Idealize.ShloMosaic.ValueIdx

theorem zeroOff : (![0, 0] : Fin 2 → Nat) = fun _ => 0 := funext fun a => by fin_cases a <;> rfl

/-- A rows-by-columns product from zero, at (p, q): the contraction index is its one coordinate k, and the operands are read at (p, k) and (k, q). -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hd : ∀ (i : (⟨2, ![M, N]⟩ : Shape).Idx) (c : d.contr.Idx),
      (d.lhsIdx i c 0).val = (i 0).val ∧ (d.lhsIdx i c 1).val = (c ⟨0, by omega⟩).val
        ∧ (d.rhsIdx i c 0).val = (c ⟨0, by omega⟩).val ∧ (d.rhsIdx i c 1).val = (i 1).val)
    (l : FVec Ideal ⟨2, ![M, K]⟩ φ₁) (r : FVec Ideal ⟨2, ![K, N]⟩ φ₂) (p : Fin M) (q : Fin N) :
    FloatOps.matmul d none l r (constant ⟨2, ![M, N]⟩ .f32 0x00000000#32) (ix2 p q) = ∑ k : Fin K, l (ix2 p k) * r (ix2 k q) := by
  rw [Ideal.matmul_constant_zero_apply, ← Equiv.sum_comp (contrEquiv1 d K hr hs).symm]
  refine Finset.sum_congr rfl fun k _ => ?_
  obtain ⟨h0, h1, h2, h3⟩ := hd (ix2 p q) ((contrEquiv1 d K hr hs).symm k)
  have hk := contrEquiv1_symm_val d K hr hs k
  rw [Shape.idx_ext₂ (y := ix2 p k) h0 (h1.trans hk), Shape.idx_ext₂ (y := ix2 k q) (h2.trans hk) h3]

/-- In a two-axis array cut into runs of B rows, all columns wide, row r lies in the run that starts at row (r / B) · B. -/
theorem mem_rowBlock {R C B : Nat} (hB : 0 < B) {off size : Fin 2 → Nat} {inb} (i : (⟨2, ![R, C]⟩ : Shape).Idx)
    (h0 : off 0 = (i 0).val / B * B) (hs0 : size 0 = B) (h1 : off 1 = 0) (hs1 : size 1 = C) :
    i ∈ (Rect.unit (s := ⟨2, ![R, C]⟩) off size inb).set :=
  Rect.mem_set_unit.mpr fun a => by
    match a with
    | ⟨0, _⟩ =>
      show off 0 ≤ (i 0).val ∧ (i 0).val < off 0 + size 0
      rw [h0, hs0]; exact ⟨Nat.div_mul_le_self _ _, Nat.lt_div_mul_add hB⟩
    | ⟨1, _⟩ =>
      show off 1 ≤ (i 1).val ∧ (i 1).val < off 1 + size 1
      rw [h1, hs1, Nat.zero_add]; exact ⟨Nat.zero_le _, idx2_lt1 i⟩

theorem lane_sum3 (src : FVec Ideal S5000x128 .f32) (h : S5000x128.Reduces [0] S128) (hφ : FKind.Formats .f32)
    (hacc : (0x00000000#32 : BitVec 32) = 0x00000000#32) (d : Fin 128) :
    multiReduction (F := Ideal) .add [0] S128 src 0x00000000#32 h hφ hacc (ix1 d) = ∑ r : Fin 5000, src (ix2 r d) := by
  refine (Ideal.multiReduction_add_single src 0x00000000#32 h hφ hacc (ix1 d)).trans ?_
  refine Finset.sum_congr rfl (fun r _ => congrArg src ?_)
  funext a
  match a with
  | ⟨0, _⟩ => rfl
  | ⟨1, _⟩ => rfl

theorem pay3_1_apply (d : Fin 128) : k3_pay1 (F := Ideal) (ix2 0 d) = 0 := by
  unfold k3_pay1
  rw [shapeCast_self, broadcast_apply]
  exact Ideal.ofBits_zero_f32

theorem pay3_2_apply (d : Fin 128) : k3_pay2 (F := Ideal) (ix2 0 d) = 0 := by
  unfold k3_pay2
  rw [shapeCast_self, broadcast_apply]
  exact Ideal.ofBits_zero_f32

theorem pay3_4_apply (blk : Vec Ideal S5000x128 .f32) (acc : Vec Ideal S1x128 .f32) (d : Fin 128) :
    k3_pay4 (F := Ideal) blk acc (ix2 0 d) = acc (ix2 0 d) + ∑ r : Fin 5000, blk (ix2 r d) := by
  unfold k3_pay4 k3_pay3
  rw [shapeCast_self, addf_apply]
  congr 1
  refine (shapeCast_a_1a_apply _ _ 0 d).trans ?_
  refine (lane_sum3 _ _ _ _ d).trans ?_
  rw [shapeCast_self]

theorem pay3_5_apply (blk : Vec Ideal S5000x128 .f32) (acc : Vec Ideal S1x128 .f32) (d : Fin 128) :
    k3_pay5 (F := Ideal) blk acc (ix2 0 d) = acc (ix2 0 d) + ∑ r : Fin 5000, blk (ix2 r d) * blk (ix2 r d) := by
  unfold k3_pay5 k3_pay3
  rw [shapeCast_self, addf_apply]
  congr 1
  refine (shapeCast_a_1a_apply _ _ 0 d).trans ?_
  refine (lane_sum3 _ _ _ _ d).trans ?_
  rw [shapeCast_self]
  rfl

/-- By induction on the point: the step hypothesis adds exactly the next addend. -/
theorem fold_sum3 {N : ℕ} (A : (n : ℕ) → n < N → EReal) (G : ℕ → EReal) (h0 : ∀ h, A 0 h = G 0)
    (hs : ∀ n (h : n + 1 < N), A (n + 1) h = A n (Nat.lt_of_succ_lt h) + G (n + 1)) :
    ∀ n (h : n < N), A n h = ∑ t ∈ Finset.range (n + 1), G t
  | 0, h => by rw [Finset.sum_range_one]; exact h0 h
  | n + 1, h => by rw [hs n h, fold_sum3 A G h0 hs n (Nat.lt_of_succ_lt h), Finset.sum_range_succ _ (n + 1)]

theorem sum_range_ten {N : ℕ} (hN : N = 10) (g : (n : ℕ) → n < N → EReal) :
    ∑ t ∈ Finset.range (9 + 1), (if ht : t < N then g t ht else 0) = ∑ t : Fin 10, g t.val (by omega) := by
  rw [Finset.sum_range]
  exact Finset.sum_congr rfl (fun t _ => dif_pos (by omega))

section
variable {N : ℕ} (hN : N = 10) (blk : (n : ℕ) → n < N → Vec Ideal S5000x128 .f32)
  (acc : (n : ℕ) → n < N → Vec Ideal S1x128 .f32 × Vec Ideal S1x128 .f32)
  (h0 : ∀ h, acc 0 h
    = (k3_pay4 (F := Ideal) (blk 0 h) (k3_pay1 (F := Ideal)), k3_pay5 (F := Ideal) (blk 0 h) (k3_pay2 (F := Ideal))))
  (hs : ∀ n (h : n + 1 < N), acc (n + 1) h
    = (k3_pay4 (F := Ideal) (blk (n + 1) h) (acc n (Nat.lt_of_succ_lt h)).1,
       k3_pay5 (F := Ideal) (blk (n + 1) h) (acc n (Nat.lt_of_succ_lt h)).2))
  (d : Fin 128) (h9 : 9 < N)
include hN h0 hs

/-- The first component obeys that recurrence with a block's column sum as the addend. -/
theorem acc_sum : (acc 9 h9).1 (ix2 0 d) = ∑ t : Fin 10, ∑ r : Fin 5000, blk t.val (by omega) (ix2 r d) := by
  rw [← sum_range_ten hN (fun t ht => ∑ r : Fin 5000, blk t ht (ix2 r d))]
  refine fold_sum3 (fun n h => (acc n h).1 (ix2 0 d)) _ (fun h => ?_) (fun n h => ?_) 9 h9
  · show (acc 0 h).1 (ix2 0 d) = _
    rw [h0 h, dif_pos h]
    show k3_pay4 (F := Ideal) (blk 0 h) (k3_pay1 (F := Ideal)) (ix2 0 d) = _
    rw [pay3_4_apply, pay3_1_apply, zero_add]
  · show (acc (n + 1) h).1 (ix2 0 d) = (acc n (Nat.lt_of_succ_lt h)).1 (ix2 0 d) + _
    rw [hs n h, dif_pos h]
    exact pay3_4_apply _ _ d

/-- So does the second, with the column sum of squares. -/
theorem acc_sumsq : (acc 9 h9).2 (ix2 0 d)
    = ∑ t : Fin 10, ∑ r : Fin 5000, blk t.val (by omega) (ix2 r d) * blk t.val (by omega) (ix2 r d) := by
  rw [← sum_range_ten hN (fun t ht => ∑ r : Fin 5000, blk t ht (ix2 r d) * blk t ht (ix2 r d))]
  refine fold_sum3 (fun n h => (acc n h).2 (ix2 0 d)) _ (fun h => ?_) (fun n h => ?_) 9 h9
  · show (acc 0 h).2 (ix2 0 d) = _
    rw [h0 h, dif_pos h]
    show k3_pay5 (F := Ideal) (blk 0 h) (k3_pay2 (F := Ideal)) (ix2 0 d) = _
    rw [pay3_5_apply, pay3_2_apply, zero_add]
  · show (acc (n + 1) h).2 (ix2 0 d) = (acc n (Nat.lt_of_succ_lt h)).2 (ix2 0 d) + _
    rw [hs n h, dif_pos h]
    exact pay3_5_apply _ _ d

end

theorem sum_blocks (f : Fin 50000 → EReal) :
    ∑ t : Fin 10, ∑ r : Fin 5000, f ⟨5000 * t.val + r.val, by omega⟩ = ∑ n : Fin 50000, f n := by
  rw [← Fintype.sum_prod_type' (fun (t : Fin 10) (r : Fin 5000) => f ⟨5000 * t.val + r.val, by omega⟩)]
  refine Fintype.sum_equiv (finProdFinEquiv (m := 10) (n := 5000)) _ _ (fun p => congrArg f (Fin.ext ?_))
  show 5000 * p.1.val + p.2.val = p.2.val + 5000 * p.1.val
  omega

end Cert.KernelIdeal.HandV

end
-- ==== Proof.KI.Final0.lean ====
import proofs.«430192_j18786186952966_1_alg».proof.Proof.KI.Reg0
import proofs.«430192_j18786186952966_1_alg».proof.Proof.KI.Final3Math
import proofs.«430192_j18786186952966_1_alg».proof.Proof.Spec

set_option maxRecDepth 16384

noncomputable section

open scoped BigOperators

namespace Cert.KernelIdeal.HandV

open Idealize.ShloMosaic Idealize.ShloMosaic.TcCoe Idealize.SL.Sem
open Idealize.ShloMosaic.Pipeline (Dat)
open Cert.KernelIdeal Cert.KernelIdeal.Gen Cert.KernelIdeal.Hand Cert.Spec Idealize.ShloMosaic.ValueIdx

variable (V : (c : Dev nD) → (b : Ref sig .tc) → Buf (Elt Ideal) ((c : Thread nD τ).loc b))

theorem pay0_prod (x0 : Vec Ideal S5000x128 .f32) (x1 : Vec Ideal S128x384 .f32) (p : Fin 5000) (q : Fin 384) :
    k0_pay1 (F := Ideal) x0 x1 (ix2 p q) = ∑ k : Fin 128, x0 (ix2 p k) * x1 (ix2 k q) := by
  unfold k0_pay1
  simp only [shapeCast_self]
  exact matmul_zero_apply dot_S5000x128_S128x384_S5000x384_1_0_0_1_n_n rfl rfl (fun _ _ => ⟨rfl, rfl, rfl, rfl⟩) _ _ p q

abbrev band0 (q : Fin 128) : Fin 384 := ⟨q.val, by omega⟩
abbrev band1 (q : Fin 128) : Fin 384 := ⟨128 + q.val, by omega⟩
abbrev band2 (q : Fin 128) : Fin 384 := ⟨256 + q.val, by omega⟩

abbrev argL0 (c : Dev nD) : S50000x128.Idx → EReal := V c main_arg0
abbrev argR0 (c : Dev nD) : S128x384.Idx → EReal := V c main_v0
abbrev blkL0 (c : Dev nD) (t : Fin cfg0.N) : Vec Ideal S5000x128 .f32 := iblk0 V c 0 t
abbrev blkR0 (c : Dev nD) (t : Fin cfg0.N) : Vec Ideal S128x384 .f32 := iblk0 V c 1 t

abbrev prodBand0 (band : Fin 128 → Fin 384) (a0 : S50000x128.Idx → EReal) (a1 : S128x384.Idx → EReal) : S50000x128.Idx → EReal :=
  fun i => ∑ k : Fin 128, a0 (ix2 (i 0) k) * a1 (ix2 k (band (i 1)))

theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Cut the band, open the product, then re-index: block row p at point t is array row 5000 t + p, and the right block is its whole array. -/
theorem band_block (o : Nat) (h : S5000x384.Slices ![0, o] S5000x128) (band : Fin 128 → Fin 384) (hb : ∀ q, (band q).val = o + q.val)
    (c : Dev nD) (t : Fin cfg0.N) (j : S5000x128.Idx) (i : S50000x128.Idx)
    (hrow : (i 0).val = t.val * 5000 + (j 0).val) (hcol : (i 1).val = (j 1).val) :
    extractStridedSlice S5000x128 ![0, o] (k0_pay1 (F := Ideal) (blkL0 V c t) (blkR0 V c t)) h j = prodBand0 band (argL0 V c) (argR0 V c) i := by
  obtain ⟨e00, e01, e10, e11, -⟩ := blockIdx0 t
  rw [eq_ix2 j]
  refine (slice2_axis1_apply o _ h (j 0) (j 1) (band (j 1)) (hb _)).trans ((pay0_prod _ _ (j 0) (band (j 1))).trans ?_)
  show _ = ∑ k : Fin 128, argL0 V c (ix2 (i 0) k) * argR0 V c (ix2 k (band (i 1)))
  rw [show i 1 = j 1 from Fin.ext hcol]
  refine Finset.sum_congr rfl fun k _ => ?_
  show argL0 V c (((cfg0.win 0).blk t).view.emb (ix2 (j 0) k)) * argR0 V c (((cfg0.win 1).blk t).view.emb (ix2 k (band (j 1))))
    = argL0 V c (ix2 (i 0) k) * argR0 V c (ix2 k (band (j 1)))
  have h0 : ((cfg0.win 0).blk t).view.emb (ix2 (j 0) k) = ix2 (i 0) k := Shape.idx_ext₂
    (by show win0_0.index t (0 : Fin 2) * 5000 + 1 * (j 0).val = (i 0).val; omega)
    (by show win0_0.index t (1 : Fin 2) * 128 + 1 * k.val = k.val; omega)
  have h1 : ((cfg0.win 1).blk t).view.emb (ix2 k (band (j 1))) = ix2 k (band (j 1)) := Shape.idx_ext₂
    (by show win0_1.index t (0 : Fin 2) * 128 + 1 * k.val = k.val; omega)
    (by show win0_1.index t (1 : Fin 2) * 384 + 1 * (band (j 1)).val = (band (j 1)).val; omega)
  rw [h0, h1]
  rfl

theorem flushed0_2_eq (c : Dev nD) (t : Fin cfg0.N) :
    (dat0 V c).flushed 2 t = ((cfg0.win 2).blk t).view.read (Elt Ideal) (prodBand0 band0 (argL0 V c) (argR0 V c)) := by
  show (cfg0.win 2).cut (grid0.coords t) ((dat0 V c).after 2 t) = _
  rw [after0_2]
  unfold out0_2
  rw [View.canon_unit_zero zeroOff]
  simp only [View.ld_unit_zero (S := S5000x128) zeroOff, View.ld_unit_zero (S := S128x384) zeroOff]
  obtain ⟨-, -, -, -, e20, e21, -⟩ := blockIdx0 t
  funext j
  exact band_block V 0 slices_S5000x384_o0_0_S5000x128 band0 (fun _ => (Nat.zero_add _).symm) c t j (((cfg0.win 2).blk t).view.emb j)
    (by show win0_2.index t (0 : Fin 2) * 5000 + 1 * (j 0).val = t.val * 5000 + (j 0).val; omega)
    (by show win0_2.index t (1 : Fin 2) * 128 + 1 * (j 1).val = (j 1).val; omega)

theorem flushed0_3_eq (c : Dev nD) (t : Fin cfg0.N) :
    (dat0 V c).flushed 3 t = ((cfg0.win 3).blk t).view.read (Elt Ideal) (prodBand0 band1 (argL0 V c) (argR0 V c)) := by
  show (cfg0.win 3).cut (grid0.coords t) ((dat0 V c).after 3 t) = _
  rw [after0_3]
  unfold out0_3
  rw [View.canon_unit_zero zeroOff]
  simp only [View.ld_unit_zero (S := S5000x128) zeroOff, View.ld_unit_zero (S := S128x384) zeroOff]
  obtain ⟨-, -, -, -, -, -, e30, e31, -⟩ := blockIdx0 t
  funext j
  exact band_block V 128 slices_S5000x384_o0_128_S5000x128 band1 (fun _ => rfl) c t j (((cfg0.win 3).blk t).view.emb j)
    (by show win0_3.index t (0 : Fin 2) * 5000 + 1 * (j 0).val = t.val * 5000 + (j 0).val; omega)
    (by show win0_3.index t (1 : Fin 2) * 128 + 1 * (j 1).val = (j 1).val; omega)

theorem flushed0_4_eq (c : Dev nD) (t : Fin cfg0.N) :
    (dat0 V c).flushed 4 t = ((cfg0.win 4).blk t).view.read (Elt Ideal) (prodBand0 band2 (argL0 V c) (argR0 V c)) := by
  show (cfg0.win 4).cut (grid0.coords t) ((dat0 V c).after 4 t) = _
  rw [after0_4]
  unfold out0_4
  rw [View.canon_unit_zero zeroOff]
  simp only [View.ld_unit_zero (S := S5000x128) zeroOff, View.ld_unit_zero (S := S128x384) zeroOff]
  obtain ⟨-, -, -, -, -, -, -, -, e40, e41⟩ := blockIdx0 t
  funext j
  exact band_block V 256 slices_S5000x384_o0_256_S5000x128 band2 (fun _ => rfl) c t j (((cfg0.win 4).blk t).view.emb j)
    (by show win0_4.index t (0 : Fin 2) * 5000 + 1 * (j 0).val = t.val * 5000 + (j 0).val; omega)
    (by show win0_4.index t (1 : Fin 2) * 128 + 1 * (j 1).val = (j 1).val; omega)

def pointOf0 (i : S50000x128.Idx) : Fin cfg0.N :=
  ⟨(i 0).val / 5000, by have hi0 : (i 0).val < 50000 := (i 0).isLt; have hN : cfg0.N = 10 := N_0; rw [hN]; omega⟩

theorem final0_2 (c : Dev nD) : (dat0 V c).arrAt 2 cfg0.N
    = (fun i => ∑ k : Fin 128, argL0 V c (ix2 (i 0) k) * argR0 V c (ix2 k ⟨(i 1).val, by have := idx2_lt1 i; omega⟩) : S50000x128.Idx → EReal) :=
  (dat0 V c).arrAt_eq_of_cover 2 (prodBand0 band0 (argL0 V c) (argR0 V c)) (fun t _ => flushed0_2_eq V c t) fun (i : S50000x128.Idx) => by
    obtain ⟨-, -, -, -, e0, e1, -⟩ := blockIdx0 (pointOf0 i)
    refine ⟨pointOf0 i, flush0_2 _, ?_⟩
    show i ∈ ((View.whole main_v1_0).slice (win0_2.rect (pointOf0 i))).set
    rw [View.set_slice_whole]
    exact mem_rowBlock (B := 5000) (by decide) i (by show win0_2.index _ (0 : Fin 2) * 5000 = _; exact congrArg (· * 5000) e0) rfl
      (by show win0_2.index _ (1 : Fin 2) * 128 = 0; omega) rfl

theorem final0_3 (c : Dev nD) : (dat0 V c).arrAt 3 cfg0.N
    = (fun i => ∑ k : Fin 128, argL0 V c (ix2 (i 0) k) * argR0 V c (ix2 k ⟨128 + (i 1).val, by have := idx2_lt1 i; omega⟩) : S50000x128.Idx → EReal) :=
  (dat0 V c).arrAt_eq_of_cover 3 (prodBand0 band1 (argL0 V c) (argR0 V c)) (fun t _ => flushed0_3_eq V c t) fun (i : S50000x128.Idx) => by
    obtain ⟨-, -, -, -, -, -, e0, e1, -⟩ := blockIdx0 (pointOf0 i)
    refine ⟨pointOf0 i, flush0_3 _, ?_⟩
    show i ∈ ((View.whole main_v1_1).slice (win0_3.rect (pointOf0 i))).set
    rw [View.set_slice_whole]
    exact mem_rowBlock (B := 5000) (by decide) i (by show win0_3.index _ (0 : Fin 2) * 5000 = _; exact congrArg (· * 5000) e0) rfl
      (by show win0_3.index _ (1 : Fin 2) * 128 = 0; omega) rfl

theorem final0_4 (c : Dev nD) : (dat0 V c).arrAt 4 cfg0.N
    = (fun i => ∑ k : Fin 128, argL0 V c (ix2 (i 0) k) * argR0 V c (ix2 k ⟨256 + (i 1).val, by have := idx2_lt1 i; omega⟩) : S50000x128.Idx → EReal) :=
  (dat0 V c).arrAt_eq_of_cover 4 (prodBand0 band2 (argL0 V c) (argR0 V c)) (fun t _ => flushed0_4_eq V c t) fun (i : S50000x128.Idx) => by
    obtain ⟨-, -, -, -, -, -, -, -, e0, e1⟩ := blockIdx0 (pointOf0 i)
    refine ⟨pointOf0 i, flush0_4 _, ?_⟩
    show i ∈ ((View.whole main_v1_2).slice (win0_4.rect (pointOf0 i))).set
    rw [View.set_slice_whole]
    exact mem_rowBlock (B := 5000) (by decide) i (by show win0_4.index _ (0 : Fin 2) * 5000 = _; exact congrArg (· * 5000) e0) rfl
      (by show win0_4.index _ (1 : Fin 2) * 128 = 0; omega) rfl

end Cert.KernelIdeal.HandV

end
-- ==== Proof.KI.Final1.lean ====
import proofs.«430192_j18786186952966_1_alg».proof.Proof.KI.Reg1
import proofs.«430192_j18786186952966_1_alg».proof.Proof.KI.Final3Math
import proofs.«430192_j18786186952966_1_alg».proof.Proof.Spec

set_option maxRecDepth 16384

noncomputable section

open scoped BigOperators

namespace Cert.KernelIdeal.HandV

open Idealize.ShloMosaic Idealize.ShloMosaic.TcCoe Idealize.SL.Sem
open Idealize.ShloMosaic.Pipeline (Dat)
open Cert.KernelIdeal Cert.KernelIdeal.Gen Cert.KernelIdeal.Hand Cert.Spec Idealize.ShloMosaic.ValueIdx

variable (V : (c : Dev nD) → (b : Ref sig .tc) → Buf (Elt Ideal) ((c : Thread nD τ).loc b))

theorem pay1_apply (x0 : Vec Ideal S8000x128 .f32) (x1 : Vec Ideal S128x128 .f32) (p : Fin 8000) (q : Fin 128) :
    k1_pay1 (F := Ideal) x0 x1 (ix2 p q) = ∑ k : Fin 128, x0 (ix2 p k) * x1 (ix2 k q) := by
  unfold k1_pay1
  exact matmul_zero_apply dot_S8000x128_S128x128_S8000x128_1_0_0_1_n_n rfl rfl (fun _ _ => ⟨rfl, rfl, rfl, rfl⟩) _ _ p q

theorem pay1_at (x0 : Vec Ideal S8000x128 .f32) (x1 : Vec Ideal S128x128 .f32) (j : S8000x128.Idx) :
    k1_pay1 (F := Ideal) x0 x1 j = ∑ k : Fin 128, x0 (ix2 (j 0) k) * x1 (ix2 k (j 1)) := by
  obtain ⟨p, q, rfl⟩ : ∃ (p : Fin 8000) (q : Fin 128), j = ix2 p q := ⟨j 0, j 1, eq_ix2 j⟩
  exact pay1_apply x0 x1 p q

abbrev argL1 (c : Dev nD) : S600000x128.Idx → EReal := V c main_arg1
abbrev argR1 (c : Dev nD) : S128x128.Idx → EReal := V c main_arg5

abbrev prod1 (a0 : S600000x128.Idx → EReal) (a1 : S128x128.Idx → EReal) : S600000x128.Idx → EReal :=
  fun i => ∑ k : Fin 128, a0 (ix2 (i 0) k) * a1 (ix2 k (i 1))

theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed1_2_eq (c : Dev nD) (t : Fin cfg1.N) :
    (dat1 V c).flushed 2 t = ((cfg1.win 2).blk t).view.read (Elt Ideal) (prod1 (argL1 V c) (argR1 V c)) := by
  show (cfg1.win 2).cut (grid1.coords t) ((dat1 V c).after 2 t) = _
  rw [after1_2]
  unfold out1_2
  rw [View.canon_unit_zero zeroOff]
  simp only [View.ld_unit_zero (S := S8000x128) zeroOff, View.ld_unit_zero (S := S128x128) zeroOff]
  obtain ⟨e00, e01, e10, e11, e20, e21⟩ := blockIdx1 t
  funext j
  refine (pay1_at (iblk1 V c 0 t) (iblk1 V c 1 t) j).trans ?_
  show ∑ k : Fin 128, argL1 V c (((cfg1.win 0).blk t).view.emb (ix2 (j 0) k)) * argR1 V c (((cfg1.win 1).blk t).view.emb (ix2 k (j 1)))
    = ∑ k : Fin 128, argL1 V c (ix2 ((((cfg1.win 2).blk t).view.emb j) 0) k) * argR1 V c (ix2 k ((((cfg1.win 2).blk t).view.emb j) 1))
  refine Finset.sum_congr rfl fun k _ => ?_
  have h0 : ((cfg1.win 0).blk t).view.emb (ix2 (j 0) k) = ix2 ((((cfg1.win 2).blk t).view.emb j) 0) k := Shape.idx_ext₂
    (by show win1_0.index t (0 : Fin 2) * 8000 + 1 * (j 0).val = win1_2.index t (0 : Fin 2) * 8000 + 1 * (j 0).val; omega)
    (by show win1_0.index t (1 : Fin 2) * 128 + 1 * k.val = k.val; omega)
  have h1 : ((cfg1.win 1).blk t).view.emb (ix2 k (j 1)) = ix2 k ((((cfg1.win 2).blk t).view.emb j) 1) := Shape.idx_ext₂
    (by show win1_1.index t (0 : Fin 2) * 128 + 1 * k.val = k.val; omega)
    (by show win1_1.index t (1 : Fin 2) * 128 + 1 * (j 1).val = win1_2.index t (1 : Fin 2) * 128 + 1 * (j 1).val; omega)
  rw [h0, h1]
  rfl

def pt1 (i : Fin 600000) : Fin cfg1.N := ⟨i.val / 8000, by have h : cfg1.N = 75 := N_1; omega⟩

theorem final1_2 (c : Dev nD) : (dat1 V c).arrAt 2 cfg1.N
    = (fun i => ∑ k : Fin 128, argL1 V c (ix2 (i 0) k) * argR1 V c (ix2 k (i 1)) : S600000x128.Idx → EReal) :=
  (dat1 V c).arrAt_eq_of_cover 2 (prod1 (argL1 V c) (argR1 V c)) (fun t _ => flushed1_2_eq V c t) fun (i : S600000x128.Idx) => by
    obtain ⟨-, -, -, -, e0, e1⟩ := blockIdx1 (pt1 (i 0))
    refine ⟨pt1 (i 0), flush1_2 _, ?_⟩
    show i ∈ ((View.whole main_v2).slice (win1_2.rect (pt1 (i 0)))).set
    rw [View.set_slice_whole]
    exact mem_rowBlock (B := 8000) (by decide) i (by show win1_2.index _ (0 : Fin 2) * 8000 = _; exact congrArg (· * 8000) e0) rfl
      (by show win1_2.index _ (1 : Fin 2) * 128 = 0; omega) rfl

end Cert.KernelIdeal.HandV

end
-- ==== Proof.KI.Host04.lean ====
import proofs.«430192_j18786186952966_1_alg».proof.Proof.Gen.KernelIdeal.Launch
import proofs.«430192_j18786186952966_1_alg».proof.Proof.Spec
import Idealize.ShloMosaic.Lib.IdealHost
import Idealize.ShloMosaic.Lib.ValueLayout

noncomputable section

namespace Cert.KernelIdeal.HostV

open Idealize.ShloMosaic Idealize.ShloMosaic.TcCoe
open Cert.KernelIdeal Cert.KernelIdeal.Gen Cert.Spec Idealize.ShloMosaic.ValueIdx

variable (W : Valuation τ sig (Elt Ideal))

theorem h4_mean (d : Fin 128) :
    (StableHlo.after hostOps4 W main_v27) (ix2 0 d) = Ideal.div ((W main_v25_0) (ix2 0 d)) cN := by
  show StableHlo.after hostOps4 W (Proc.devRef .tc main_v27) (ix2 0 d) = _
  after_results_simp
  rfl

theorem h4_var (d : Fin 128) :
    (StableHlo.after hostOps4 W main_v31) (ix2 0 d)
      = Ideal.div ((W main_v25_1) (ix2 0 d)) cN
          - Ideal.div ((W main_v25_0) (ix2 0 d)) cN * Ideal.div ((W main_v25_0) (ix2 0 d)) cN := by
  show StableHlo.after hostOps4 W (Proc.devRef .tc main_v31) (ix2 0 d) = _
  after_results_simp
  rfl

theorem h4_gamma (d : Fin 128) :
    (StableHlo.after hostOps4 W main_v32) (ix2 0 d) = (W main_arg6) (ix1 d) := by
  show StableHlo.after hostOps4 W (Proc.devRef .tc main_v32) (ix2 0 d) = _
  after_results_simp
  exact shapeCast_a_1a_apply _ _ 0 d

theorem h4_beta (d : Fin 128) :
    (StableHlo.after hostOps4 W main_v33) (ix2 0 d) = (W main_arg7) (ix1 d) := by
  show StableHlo.after hostOps4 W (Proc.devRef .tc main_v33) (ix2 0 d) = _
  after_results_simp
  exact shapeCast_a_1a_apply _ _ 0 d

-- Three square matrices side by side: the p-th block of 128 columns reads the p-th matrix.
theorem cat3_apply (a b c : S128x128.Idx → EReal)
    (h : Shape.Concatenates ([(⟨S128x128, a⟩ : (s : Shape) × (s.Idx → EReal)), ⟨S128x128, b⟩, ⟨S128x128, c⟩].map (·.1)) S128x384 1)
    (p : Fin 3) (k j : Fin 128) (q : Fin 384) (hq : 128 * p.val + j.val = q.val) :
    concatenate S128x384 1 [⟨S128x128, a⟩, ⟨S128x128, b⟩, ⟨S128x128, c⟩] h (ix2 k q) = ![a, b, c] p (ix2 k j) := by
  refine concatenate_apply_piece (t := S128x384) 1 _ h _ p.val p.isLt S128x128 (![a, b, c] p) (by fin_cases p <;> rfl) rfl
    (128 * p.val) (by fin_cases p <;> rfl) (ix2 k j) ?_ hq
  intro b hb
  match b with
  | ⟨0, _⟩ => rfl
  | ⟨1, _⟩ => exact absurd rfl hb

theorem h0_wq (k j : Fin 128) :
    (StableHlo.after hostOps0 W main_v0) (ix2 k ⟨j.val, by omega⟩) = (W main_arg2) (ix2 k j) := by
  show StableHlo.after hostOps0 W (Proc.devRef .tc main_v0) (ix2 k ⟨j.val, by omega⟩) = _
  after_results_simp
  exact cat3_apply _ _ _ _ 0 k j _ (Nat.zero_add _)

theorem h0_wk (k j : Fin 128) :
    (StableHlo.after hostOps0 W main_v0) (ix2 k ⟨128 + j.val, by omega⟩) = (W main_arg3) (ix2 k j) := by
  show StableHlo.after hostOps0 W (Proc.devRef .tc main_v0) (ix2 k ⟨128 + j.val, by omega⟩) = _
  after_results_simp
  exact cat3_apply _ _ _ _ 1 k j _ rfl

theorem h0_wv (k j : Fin 128) :
    (StableHlo.after hostOps0 W main_v0) (ix2 k ⟨256 + j.val, by omega⟩) = (W main_arg4) (ix2 k j) := by
  show StableHlo.after hostOps0 W (Proc.devRef .tc main_v0) (ix2 k ⟨256 + j.val, by omega⟩) = _
  after_results_simp
  exact cat3_apply _ _ _ _ 2 k j _ rfl

set_option maxHeartbeats 1000000 in
theorem lit0_eq : ∀ i : Fin 1024, lit0 i = if (i.val / 8) / 16 = i.val % 8 then 0x3F800000#32 else 0#32 := by
  decide +kernel

set_option maxHeartbeats 1000000 in
theorem lit1_eq : ∀ i : Fin 1024, lit1 i = if (i.val % 128) / 16 = i.val / 128 then 0x3F800000#32 else 0#32 := by
  decide +kernel

-- The word of 1 where the column's head is h, the zero word elsewhere, denotes the 0/1 entry.
theorem bits_ind (d : Fin 128) (h : Fin 8) :
    Ideal.ofBits .f32 (if d.val / 16 = h.val then 0x3F800000#32 else 0#32) = ind d h := by
  rw [ind]
  by_cases hc : d.val / 16 = h.val
  · rw [if_pos hc, if_pos (Fin.ext hc)]; exact Ideal.ofBits_one_f32
  · rw [if_neg hc, if_neg (fun e => hc (congrArg Fin.val e))]; exact Ideal.ofBits_zero_f32

theorem lit0_at (d : Fin 128) (h : Fin 8) (i : Fin 1024) (hi : i.val = d.val * 8 + h.val) :
    Ideal.ofBits .f32 (lit0 i) = ind d h := by
  rw [lit0_eq i, hi, show (d.val * 8 + h.val) / 8 = d.val by omega, show (d.val * 8 + h.val) % 8 = h.val by omega]
  exact bits_ind d h

theorem lit1_at (d : Fin 128) (h : Fin 8) (i : Fin 1024) (hi : i.val = h.val * 128 + d.val) :
    Ideal.ofBits .f32 (lit1 i) = ind d h := by
  rw [lit1_eq i, hi, show (h.val * 128 + d.val) % 128 = d.val by omega, show (h.val * 128 + d.val) / 128 = h.val by omega]
  exact bits_ind d h

theorem h0_sum (d : Fin 128) (h : Fin 8) :
    (StableHlo.after hostOps0 W main_cst) (ix2 d h) = ind d h := by
  show StableHlo.after hostOps0 W (Proc.devRef .tc main_cst) (ix2 d h) = _
  after_results_simp
  exact lit0_at d h (S128x8.rowMajor (ix2 d h)) (Shape.rowMajor_val_two _)

theorem h0_spread (h : Fin 8) (d : Fin 128) :
    (StableHlo.after hostOps0 W main_cst_0) (ix2 h d) = ind d h := by
  show StableHlo.after hostOps0 W (Proc.devRef .tc main_cst_0) (ix2 h d) = _
  after_results_simp
  exact lit1_at d h (S8x128.rowMajor (ix2 h d)) (Shape.rowMajor_val_two _)

end Cert.KernelIdeal.HostV

end
-- ==== Proof.KI.Val12.lean ====
import proofs.«430192_j18786186952966_1_alg».proof.Proof.KI.Data
import proofs.«430192_j18786186952966_1_alg».proof.Proof.KI.Final0
import proofs.«430192_j18786186952966_1_alg».proof.Proof.KI.Final1
import proofs.«430192_j18786186952966_1_alg».proof.Proof.KI.Host04
import proofs.«430192_j18786186952966_1_alg».proof.Proof.KI.ValArgs

noncomputable section

open scoped BigOperators

namespace Cert.KernelIdeal.ValV

open Idealize.ShloMosaic Idealize.ShloMosaic.TcCoe Idealize.SL.Sem
open Cert.KernelIdeal Cert.KernelIdeal.Gen Cert.KernelIdeal.Hand Cert.KernelIdeal.HandV Cert.KernelIdeal.HostV Cert.Spec Idealize.ShloMosaic.ValueIdx

variable (m : (ℓ : Loc nD τ sig) → Buf (Elt Ideal) ℓ) (c : Dev nD)

theorem val_sum (d : Fin 128) (h : Fin 8) : (Gen.V1 m c main_cst) (ix2 d h) = ind d h :=
  h0_sum (Gen.V0 m c) d h

theorem val_spread (h : Fin 8) (d : Fin 128) : (Gen.V1 m c main_cst_0) (ix2 h d) = ind d h :=
  h0_spread (Gen.V0 m c) h d

theorem v1_x (i : S50000x128.Idx) :
    (Gen.V1 m c main_arg0 : S50000x128.Idx → EReal) i = (m ((c.tc : Thread nD τ).loc main_arg0) : FVec Ideal S50000x128 .f32) i :=
  congrFun (Gen.V1_of m c main_arg0 (by decide)) i

theorem val_q (n : Fin 50000) (j : Fin 128) :
    (Gen.V2 m (outs m) c main_v1_0) (ix2 n j) = proj (aX m c) (aWQ m c) n j := by
  have h1 : (dat0 (En0 m) c).arrAt 2 cfg0.N = Gen.V2 m (outs m) c main_v1_0 := hF0 m c 2
  refine (congrFun h1.symm (ix2 n j)).trans ((congrFun (final0_2 (En0 m) c) (ix2 n j)).trans ?_)
  show (_ : EReal) = _
  exact Finset.sum_congr rfl fun k _ => congrArg₂ (· * ·) (v1_x m c (ix2 n k)) (h0_wq (Gen.V0 m c) k j)

theorem val_k (n : Fin 50000) (j : Fin 128) :
    (Gen.V2 m (outs m) c main_v1_1) (ix2 n j) = proj (aX m c) (aWK m c) n j := by
  have h1 : (dat0 (En0 m) c).arrAt 3 cfg0.N = Gen.V2 m (outs m) c main_v1_1 := hF0 m c 3
  refine (congrFun h1.symm (ix2 n j)).trans ((congrFun (final0_3 (En0 m) c) (ix2 n j)).trans ?_)
  show (_ : EReal) = _
  exact Finset.sum_congr rfl fun k _ => congrArg₂ (· * ·) (v1_x m c (ix2 n k)) (h0_wk (Gen.V0 m c) k j)

theorem val_v (n : Fin 50000) (j : Fin 128) :
    (Gen.V2 m (outs m) c main_v1_2) (ix2 n j) = proj (aX m c) (aWV m c) n j := by
  have h1 : (dat0 (En0 m) c).arrAt 4 cfg0.N = Gen.V2 m (outs m) c main_v1_2 := hF0 m c 4
  refine (congrFun h1.symm (ix2 n j)).trans ((congrFun (final0_4 (En0 m) c) (ix2 n j)).trans ?_)
  show (_ : EReal) = _
  exact Finset.sum_congr rfl fun k _ => congrArg₂ (· * ·) (v1_x m c (ix2 n k)) (h0_wv (Gen.V0 m c) k j)

theorem val_eh (e : Fin 600000) (j : Fin 128) :
    (Gen.V3 m (outs m) c main_v2) (ix2 e j) = proj (aEA m c) (aWE m c) e j := by
  have h1 : (dat1 (En1 m) c).arrAt 2 cfg1.N = Gen.V3 m (outs m) c main_v2 := hF1 m c 2
  refine (congrFun h1.symm (ix2 e j)).trans ((congrFun (final1_2 (En1 m) c) (ix2 e j)).trans ?_)
  show (_ : EReal) = _
  exact Finset.sum_congr rfl fun k _ => congrArg₂ (· * ·)
    (congrFun ((Gen.V2_of m (O2 m) c main_arg1 (by decide)).trans (Gen.V1_of m c main_arg1 (by decide))) (ix2 e k))
    (congrFun ((Gen.V2_of m (O2 m) c main_arg5 (by decide)).trans (Gen.V1_of m c main_arg5 (by decide))) (ix2 k j))

end Cert.KernelIdeal.ValV

end
-- ==== Proof.KI.Final2.lean ====
import proofs.«430192_j18786186952966_1_alg».proof.Proof.KI.Reg2
import proofs.«430192_j18786186952966_1_alg».proof.Proof.KI.Final3Math
import proofs.«430192_j18786186952966_1_alg».proof.Proof.Spec

set_option maxRecDepth 16384

noncomputable section

open scoped BigOperators

namespace Cert.KernelIdeal.HandV

open Idealize.ShloMosaic Idealize.ShloMosaic.TcCoe Idealize.SL.Sem
open Idealize.ShloMosaic.Pipeline (Dat)
open Cert.KernelIdeal Cert.KernelIdeal.Gen Cert.KernelIdeal.Hand Cert.Spec Idealize.ShloMosaic.ValueIdx

variable (V : (c : Dev nD) → (b : Ref sig .tc) → Buf (Elt Ideal) ((c : Thread nD τ).loc b))

theorem pay2_7_apply (x0 x1 x2 : Vec Ideal S8000x128 .f32) (x4 : Vec Ideal S128x8 .f32) (p : Fin 8000) (h : Fin 8) :
    k2_pay1 x0 x1 x2 x4 (ix2 p h)
      = Ideal.exp (min c5 (max cM5 (∑ d : Fin 128, (((x0 (ix2 p d) * x1 (ix2 p d)) * x2 (ix2 p d)) * cQuarter) * x4 (ix2 d h)))) := by
  unfold k2_pay1
  simp only [shapeCast_self]
  exact congrArg (fun z => Ideal.exp (min c5 (max cM5 z))) (matmul_zero_apply dot_S8000x128_S128x8_S8000x8_1_0_0_1_n_n rfl rfl (fun _ _ => ⟨rfl, rfl, rfl, rfl⟩) _ _ p h)

theorem pay2_6_apply (x0 x1 x2 : Vec Ideal S8000x128 .f32) (x4 : Vec Ideal S128x8 .f32) (x5 : Vec Ideal S8x128 .f32) (x3 : Vec Ideal S8000x128 .f32)
    (p : Fin 8000) (q : Fin 128) :
    k2_pay2 x0 x1 x2 x4 x5 x3 (ix2 p q) = x3 (ix2 p q) * ∑ h : Fin 8, k2_pay1 x0 x1 x2 x4 (ix2 p h) * x5 (ix2 h q) := by
  unfold k2_pay2
  simp only [shapeCast_self]
  exact congrArg (x3 (ix2 p q) * ·) (matmul_zero_apply dot_S8000x8_S8x128_S8000x128_1_0_0_1_n_n rfl rfl (fun _ _ => ⟨rfl, rfl, rfl, rfl⟩) _ _ p q)

abbrev x2_0 (c : Dev nD) : S600000x128.Idx → EReal := V c main_v7
abbrev x2_1 (c : Dev nD) : S600000x128.Idx → EReal := V c main_v8
abbrev x2_2 (c : Dev nD) : S600000x128.Idx → EReal := V c main_v2
abbrev x2_3 (c : Dev nD) : S600000x128.Idx → EReal := V c main_v9
abbrev x2_4 (c : Dev nD) : S128x8.Idx → EReal := V c main_cst
abbrev x2_5 (c : Dev nD) : S8x128.Idx → EReal := V c main_cst_0

def score2 (c : Dev nD) (e : Fin 600000) (h : Fin 8) : EReal :=
  Ideal.exp (min c5 (max cM5 (∑ d : Fin 128,
    (((x2_0 V c (ix2 e d) * x2_1 V c (ix2 e d)) * x2_2 V c (ix2 e d)) * cQuarter) * x2_4 V c (ix2 d h))))

def G2_7 (c : Dev nD) : S600000x8.Idx → EReal := fun i => score2 V c (i 0) (i 1)

def G2_6 (c : Dev nD) : S600000x128.Idx → EReal := fun i =>
  x2_3 V c (ix2 (i 0) (i 1)) * ∑ h : Fin 8, score2 V c (i 0) h * x2_5 V c (ix2 h (i 1))

theorem idx_facts2 : ∀ t : Fin cfg2.N,
    ((cfg2.win 0).index t (0 : Fin 2) = t.val ∧ (cfg2.win 0).index t (1 : Fin 2) = 0)
    ∧ ((cfg2.win 1).index t (0 : Fin 2) = t.val ∧ (cfg2.win 1).index t (1 : Fin 2) = 0)
    ∧ ((cfg2.win 2).index t (0 : Fin 2) = t.val ∧ (cfg2.win 2).index t (1 : Fin 2) = 0)
    ∧ ((cfg2.win 3).index t (0 : Fin 2) = t.val ∧ (cfg2.win 3).index t (1 : Fin 2) = 0)
    ∧ ((cfg2.win 4).index t (0 : Fin 2) = 0 ∧ (cfg2.win 4).index t (1 : Fin 2) = 0)
    ∧ ((cfg2.win 5).index t (0 : Fin 2) = 0 ∧ (cfg2.win 5).index t (1 : Fin 2) = 0)
    ∧ ((cfg2.win 6).index t (0 : Fin 2) = t.val ∧ (cfg2.win 6).index t (1 : Fin 2) = 0)
    ∧ ((cfg2.win 7).index t (0 : Fin 2) = t.val ∧ (cfg2.win 7).index t (1 : Fin 2) = 0) :=
  (by decide +kernel : ∀ t : Fin grid2.N, _)

theorem iblk2_rows (c : Dev nD) (t : Fin cfg2.N) (p : Fin 8000) (q : Fin 128) (k : S600000x128.Idx)
    (hk0 : (k 0).val = 8000 * t.val + p.val) (hk1 : (k 1).val = q.val) :
    (iblk2 V c 0 t : Vec Ideal S8000x128 .f32) (ix2 p q) = x2_0 V c k ∧ (iblk2 V c 1 t : Vec Ideal S8000x128 .f32) (ix2 p q) = x2_1 V c k
    ∧ (iblk2 V c 2 t : Vec Ideal S8000x128 .f32) (ix2 p q) = x2_2 V c k ∧ (iblk2 V c 3 t : Vec Ideal S8000x128 .f32) (ix2 p q) = x2_3 V c k := by
  obtain ⟨⟨_, _⟩, ⟨_, _⟩, ⟨_, _⟩, ⟨_, _⟩, -⟩ := idx_facts2 t
  refine ⟨?_, ?_, ?_, ?_⟩ <;>
  · unfold iblk2
    rw [View.read_apply]
    refine congrArg (V c _) (Shape.idx_ext₂ ?_ ?_)
    · show _ * 8000 + 1 * p.val = (k 0).val; omega
    · show _ * 128 + 1 * q.val = (k 1).val; omega

theorem iblk2_4_apply (c : Dev nD) (t : Fin cfg2.N) (d : Fin 128) (h : Fin 8) :
    (iblk2 V c 4 t : Vec Ideal S128x8 .f32) (ix2 d h) = x2_4 V c (ix2 d h) := by
  obtain ⟨-, -, -, -, ⟨_, _⟩, -⟩ := idx_facts2 t
  unfold iblk2
  rw [View.read_apply]
  refine congrArg (V c _) (Shape.idx_ext₂ ?_ ?_)
  · show _ * 128 + 1 * d.val = d.val; omega
  · show _ * 8 + 1 * h.val = h.val; omega

theorem iblk2_5_apply (c : Dev nD) (t : Fin cfg2.N) (h : Fin 8) (q : Fin 128) :
    (iblk2 V c 5 t : Vec Ideal S8x128 .f32) (ix2 h q) = x2_5 V c (ix2 h q) := by
  obtain ⟨-, -, -, -, -, ⟨_, _⟩, -⟩ := idx_facts2 t
  unfold iblk2
  rw [View.read_apply]
  refine congrArg (V c _) (Shape.idx_ext₂ ?_ ?_)
  · show _ * 8 + 1 * h.val = h.val; omega
  · show _ * 128 + 1 * q.val = q.val; omega

theorem point2_7 (c : Dev nD) (t : Fin cfg2.N) (p : Fin 8000) (h : Fin 8) (e : Fin 600000) (he : e.val = 8000 * t.val + p.val) :
    k2_pay1 (iblk2 V c 0 t) (iblk2 V c 1 t) (iblk2 V c 2 t) (iblk2 V c 4 t) (ix2 p h) = score2 V c e h := by
  refine (pay2_7_apply (iblk2 V c 0 t) (iblk2 V c 1 t) (iblk2 V c 2 t) (iblk2 V c 4 t) p h).trans ?_
  unfold score2
  refine congrArg Ideal.exp (congrArg (min c5) (congrArg (max cM5) (Finset.sum_congr rfl fun d _ => ?_)))
  obtain ⟨r0, r1, r2, -⟩ := iblk2_rows V c t p d (ix2 e d) he rfl
  rw [r0, r1, r2, iblk2_4_apply V c t d h]

theorem point2_6 (c : Dev nD) (t : Fin cfg2.N) (p : Fin 8000) (q : Fin 128) (e : Fin 600000) (he : e.val = 8000 * t.val + p.val) :
    k2_pay2 (iblk2 V c 0 t) (iblk2 V c 1 t) (iblk2 V c 2 t) (iblk2 V c 4 t) (iblk2 V c 5 t) (iblk2 V c 3 t) (ix2 p q)
      = x2_3 V c (ix2 e q) * ∑ h : Fin 8, score2 V c e h * x2_5 V c (ix2 h q) := by
  refine (pay2_6_apply (iblk2 V c 0 t) (iblk2 V c 1 t) (iblk2 V c 2 t) (iblk2 V c 4 t) (iblk2 V c 5 t) (iblk2 V c 3 t) p q).trans ?_
  rw [(iblk2_rows V c t p q (ix2 e q) he rfl).2.2.2]
  refine congrArg (x2_3 V c (ix2 e q) * ·) (Finset.sum_congr rfl fun h _ => ?_)
  rw [point2_7 V c t p h e he, iblk2_5_apply V c t h q]

theorem point2_6_at (c : Dev nD) (t : Fin cfg2.N) (p : Fin 8000) (q : Fin 128) (k : S600000x128.Idx)
    (hk0 : (k 0).val = 8000 * t.val + p.val) (hk1 : (k 1).val = q.val) :
    k2_pay2 (iblk2 V c 0 t) (iblk2 V c 1 t) (iblk2 V c 2 t) (iblk2 V c 4 t) (iblk2 V c 5 t) (iblk2 V c 3 t) (ix2 p q) = G2_6 V c k := by
  have hq : q = k 1 := Fin.ext hk1.symm
  subst hq
  exact point2_6 V c t p (k 1) (k 0) hk0

theorem flushed2_7_eq (c : Dev nD) (t : Fin cfg2.N) :
    (dat2 V c).flushed 7 t = ((cfg2.win 7).blk t).view.read (Elt Ideal) (G2_7 V c) := by
  show (cfg2.win 7).cut (grid2.coords t) ((dat2 V c).after 7 t) = _
  rw [after2_7]
  unfold out2_7
  rw [View.canon_unit_zero zeroOff]
  simp only [View.ld_unit_zero (S := S8000x128) zeroOff, View.ld_unit_zero (S := S128x8) zeroOff]
  obtain ⟨-, -, -, -, -, -, -, e0, e1⟩ := idx_facts2 t
  have hN : cfg2.N = 75 := N_2
  funext j
  show k2_pay1 (iblk2 V c 0 t) (iblk2 V c 1 t) (iblk2 V c 2 t) (iblk2 V c 4 t) j = G2_7 V c (((cfg2.win 7).blk t).view.emb j)
  rw [eq_ix2 j]
  have hj0 : (j 0).val < 8000 := (j 0).isLt
  have ht : t.val < 75 := hN ▸ t.isLt
  refine (point2_7 V c t (j 0) (j 1) ⟨8000 * t.val + (j 0).val, by omega⟩ rfl).trans ?_
  unfold G2_7
  congr 1
  · apply Fin.ext
    show 8000 * t.val + (j 0).val = (cfg2.win 7).index t (0 : Fin 2) * 8000 + 1 * (j 0).val
    rw [e0]; omega
  · apply Fin.ext
    show (j 1).val = (cfg2.win 7).index t (1 : Fin 2) * 8 + 1 * (j 1).val
    rw [e1]; omega

theorem flushed2_6_eq (c : Dev nD) (t : Fin cfg2.N) :
    (dat2 V c).flushed 6 t = ((cfg2.win 6).blk t).view.read (Elt Ideal) (G2_6 V c) := by
  show (cfg2.win 6).cut (grid2.coords t) ((dat2 V c).after 6 t) = _
  rw [after2_6]
  unfold out2_6
  rw [View.canon_unit_zero zeroOff]
  simp only [View.ld_unit_zero (S := S8000x128) zeroOff, View.ld_unit_zero (S := S128x8) zeroOff, View.ld_unit_zero (S := S8x128) zeroOff]
  obtain ⟨-, -, -, -, -, -, ⟨e0, e1⟩, -⟩ := idx_facts2 t
  funext j
  show k2_pay2 (iblk2 V c 0 t) (iblk2 V c 1 t) (iblk2 V c 2 t) (iblk2 V c 4 t) (iblk2 V c 5 t) (iblk2 V c 3 t) j = G2_6 V c (((cfg2.win 6).blk t).view.emb j)
  rw [eq_ix2 j]
  refine point2_6_at V c t (j 0) (j 1) _ ?_ ?_
  · show (cfg2.win 6).index t (0 : Fin 2) * 8000 + 1 * (j 0).val = 8000 * t.val + (j 0).val; rw [e0]; omega
  · show (cfg2.win 6).index t (1 : Fin 2) * 128 + 1 * (j 1).val = (j 1).val; rw [e1]; omega

def pt2 (i : Fin 600000) : Fin cfg2.N := ⟨i.val / 8000, by have h : cfg2.N = 75 := N_2; omega⟩

theorem final2_7 (c : Dev nD) : (dat2 V c).arrAt 7 cfg2.N = fun (i : S600000x8.Idx) => score2 V c (i 0) (i 1) :=
  (dat2 V c).arrAt_eq_of_cover 7 (G2_7 V c) (fun t _ => flushed2_7_eq V c t) fun (i : S600000x8.Idx) => by
    obtain ⟨-, -, -, -, -, -, -, e0, e1⟩ := idx_facts2 (pt2 (i 0))
    refine ⟨pt2 (i 0), flush2_7 _, ?_⟩
    show i ∈ ((View.whole main_v10_1).slice (win2_7.rect (pt2 (i 0)))).set
    rw [View.set_slice_whole]
    exact mem_rowBlock (B := 8000) (by decide) i (by show (cfg2.win 7).index _ (0 : Fin 2) * 8000 = _; exact congrArg (· * 8000) e0) rfl
      (by show (cfg2.win 7).index _ (1 : Fin 2) * 8 = 0; omega) rfl

theorem final2_6 (c : Dev nD) : (dat2 V c).arrAt 6 cfg2.N = fun (i : S600000x128.Idx) =>
    x2_3 V c (ix2 (i 0) (i 1)) * ∑ h : Fin 8, score2 V c (i 0) h * x2_5 V c (ix2 h (i 1)) :=
  (dat2 V c).arrAt_eq_of_cover 6 (G2_6 V c) (fun t _ => flushed2_6_eq V c t) fun (i : S600000x128.Idx) => by
    obtain ⟨-, -, -, -, -, -, ⟨e0, e1⟩, -⟩ := idx_facts2 (pt2 (i 0))
    refine ⟨pt2 (i 0), flush2_6 _, ?_⟩
    show i ∈ ((View.whole main_v10_0).slice (win2_6.rect (pt2 (i 0)))).set
    rw [View.set_slice_whole]
    exact mem_rowBlock (B := 8000) (by decide) i (by show (cfg2.win 6).index _ (0 : Fin 2) * 8000 = _; exact congrArg (· * 8000) e0) rfl
      (by show (cfg2.win 6).index _ (1 : Fin 2) * 128 = 0; omega) rfl

end Cert.KernelIdeal.HandV

end
-- ==== Proof.PreFacts.lean ====
import proofs.«430192_j18786186952966_1_alg».proof.Defs
import proofs.«430192_j18786186952966_1_alg».proof.Proof.Gen.Pre_finite_inputs
import Idealize.ShloMosaic.Lib.ReduceAll
import Idealize.ShloMosaic.Lib.StableHlo.Predicate
import Idealize.ShloMosaic.Lib.ValueIdx

noncomputable section

namespace Cert.PreFacts

open Idealize.ShloMosaic Idealize.SL.Sem Cert.Pre_finite_inputs

-- max x (-x) is +inf at both infinities, so below +inf it leaves only the reals.
theorem elem_finite (x : Ideal .f32)
    (h : FloatOps.cmpf (F := Ideal) .olt (FloatOps.hostAbsf x) (FloatOps.ofBits .f32 0x7F800000#32) = 1#1) :
    ∃ r : ℝ, x = (r : EReal) := by
  have h : max x (-x) < Ideal.ofBits .f32 0x7F800000#32 :=
    of_decide_eq_true ((StableHlo.Predicate.ofBool_eq_one_iff _).1 h)
  rw [show Ideal.ofBits .f32 0x7F800000#32 = (⊤ : EReal) by simp [Ideal.ofBits, Ideal.ieee]] at h
  induction x using EReal.rec with
  | bot => simp at h
  | coe r => exact ⟨r, rfl⟩
  | top => simp at h

-- 0 ≤ w signed excludes the words with the top bit set; on the rest the signed and natural readings agree.
theorem toNat_lt_of_signed (w : BitVec 32) (h0 : IntOp.cmpi .sge w 0#32 = 1#1) (h1 : IntOp.cmpi .slt w 50000#32 = 1#1) :
    w.toNat < 50000 := by
  rw [IntOp.cmpi_sge, show (0#32 : BitVec 32).toInt = 0 by decide] at h0
  rw [IntOp.cmpi_slt, show (50000#32 : BitVec 32).toInt = 50000 by decide] at h1
  have hw := BitVec.toInt_eq_toNat_cond w
  have hl := w.isLt
  split at hw <;> omega

theorem toInt_eq_toNat_of_lt (w : BitVec 32) (h : w.toNat < 50000) : w.toInt = (w.toNat : Int) :=
  BitVec.toInt_eq_toNat_of_lt (by omega)

instance : Subsingleton S_.Idx := ⟨fun _ _ => funext fun d => d.elim0⟩

variable [Cert.Pre_finite_inputs.Facts]

-- The precondition is an `and` of ten reductions by `and` over every axis; each gives its comparison at every index.
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : FVec Ideal S50000x128 .f32) i = (r : EReal))
      ∧ (∀ i, ∃ r : ℝ, (m ((c.tc : Thread Cert.KernelIdeal.nD Cert.KernelIdeal.τ).loc Cert.KernelIdeal.main_arg1) : FVec Ideal S600000x128 .f32) i = (r : EReal))
      ∧ (∀ i, ∃ r : ℝ, (m ((c.tc : Thread Cert.KernelIdeal.nD Cert.KernelIdeal.τ).loc Cert.KernelIdeal.main_arg2) : FVec Ideal S128x128 .f32) i = (r : EReal))
      ∧ (∀ i, ∃ r : ℝ, (m ((c.tc : Thread Cert.KernelIdeal.nD Cert.KernelIdeal.τ).loc Cert.KernelIdeal.main_arg3) : FVec Ideal S128x128 .f32) i = (r : EReal))
      ∧ (∀ i, ∃ r : ℝ, (m ((c.tc : Thread Cert.KernelIdeal.nD Cert.KernelIdeal.τ).loc Cert.KernelIdeal.main_arg4) : FVec Ideal S128x128 .f32) i = (r : EReal))
      ∧ (∀ i, ∃ r : ℝ, (m ((c.tc : Thread Cert.KernelIdeal.nD Cert.KernelIdeal.τ).loc Cert.KernelIdeal.main_arg5) : FVec Ideal S128x128 .f32) i = (r : EReal))
      ∧ (∀ i, ∃ r : ℝ, (m ((c.tc : Thread Cert.KernelIdeal.nD Cert.KernelIdeal.τ).loc Cert.KernelIdeal.main_arg6) : FVec Ideal S128 .f32) i = (r : EReal))
      ∧ (∀ i, ∃ r : ℝ, (m ((c.tc : Thread Cert.KernelIdeal.nD Cert.KernelIdeal.τ).loc Cert.KernelIdeal.main_arg7) : FVec Ideal S128 .f32) i = (r : EReal))
      ∧ (∀ i, ((m ((c.tc : Thread Cert.KernelIdeal.nD Cert.KernelIdeal.τ).loc Cert.KernelIdeal.main_arg8) : IVec S2x600000 32) i).toNat < 50000) := by
  have h : fn (F := Ideal) _ _ _ _ _ _ _ _ _ ValueIdx.ix0 = 1#1 := congrFun (h c) ValueIdx.ix0
  dsimp only [fn, fn_part1, fn_part2] at h
  simp only [andi, IntOp.andi_eq_one] at h
  obtain ⟨⟨⟨⟨⟨⟨⟨⟨⟨h0, h1⟩, h2⟩, h3⟩, h4⟩, h5⟩, h6⟩, h7⟩, h8a⟩, h8b⟩ := h
  exact ⟨fun i => elem_finite _ (Host.reduce_andi_all _ _ _ _ _ h0 i), fun i => elem_finite _ (Host.reduce_andi_all _ _ _ _ _ h1 i),
    fun i => elem_finite _ (Host.reduce_andi_all _ _ _ _ _ h2 i), fun i => elem_finite _ (Host.reduce_andi_all _ _ _ _ _ h3 i),
    fun i => elem_finite _ (Host.reduce_andi_all _ _ _ _ _ h4 i), fun i => elem_finite _ (Host.reduce_andi_all _ _ _ _ _ h5 i),
    fun i => elem_finite _ (Host.reduce_andi_all _ _ _ _ _ h6 i), fun i => elem_finite _ (Host.reduce_andi_all _ _ _ _ _ h7 i),
    fun i => toNat_lt_of_signed _ (Host.reduce_andi_all _ _ _ _ _ h8a i) (Host.reduce_andi_all _ _ _ _ _ h8b i)⟩

end Cert.PreFacts

end
-- ==== Proof.LibGatherRows2.lean ====
import Idealize.ShloMosaic.Lib.ValueIdx

namespace Idealize.ShloMosaic.GatherRows2

open Idealize.ShloMosaic Idealize.ShloMosaic.ValueIdx

variable {N B W w : Nat} {α : Type}

abbrev rows2Dims (N B W : Nat)
    (wf : GatherDims.WF ⟨2, ![N, W]⟩ ⟨2, ![B, 1]⟩ ⟨2, ![B, W]⟩ [1] [0] [] [0] [] 1 ![1, W]) :
    GatherDims ⟨2, ![N, W]⟩ ⟨2, ![B, 1]⟩ ⟨2, ![B, W]⟩ where
  offsetDims := [1]
  collapsedSliceDims := [0]
  operandBatchingDims := []
  startIndicesBatchingDims := []
  startIndexMap := [0]
  indexVectorDim := 1
  sliceSizes := ![1, W]
  wf := wf

variable (wf : GatherDims.WF ⟨2, ![N, W]⟩ ⟨2, ![B, 1]⟩ ⟨2, ![B, W]⟩ [1] [0] [] [0] [] 1 ![1, W])

abbrev rowIdx (b : Fin B) : (⟨2, ![B, 1]⟩ : Shape).Idx := ix2 b ⟨0, Nat.one_pos⟩

theorem start_row (j : (⟨2, ![B, W]⟩ : Shape).Idx) (idx : IVec ⟨2, ![B, 1]⟩ w) :
    (rows2Dims N B W wf).start j idx 0 = min (idx (rowIdx (j 0))).toInt.toNat (N - 1) := by
  unfold GatherDims.start
  rw [dif_pos (show (0 : Fin 2) ∈ (rows2Dims N B W wf).startIndexMap from List.mem_singleton.mpr rfl)]
  have hsi : (rows2Dims N B W wf).siIdx j ⟨List.idxOf (0 : Fin 2) (rows2Dims N B W wf).startIndexMap,
      List.idxOf_lt_length_iff.2 (List.mem_singleton.mpr rfl)⟩ = rowIdx (j 0) := by
    funext b; refine Fin.ext ?_
    match b with
    | ⟨0, _⟩ => rfl
    | ⟨1, _⟩ => rfl
  rw [hsi]
  rfl

theorem start_col (j : (⟨2, ![B, W]⟩ : Shape).Idx) (idx : IVec ⟨2, ![B, 1]⟩ w) :
    (rows2Dims N B W wf).start j idx 1 = 0 := by
  unfold GatherDims.start
  rw [dif_neg (show ¬ (1 : Fin 2) ∈ ([0] : List (Fin 2)) by decide)]

theorem offCoord_row (j : (⟨2, ![B, W]⟩ : Shape).Idx) : (rows2Dims N B W wf).offCoord j 0 = 0 :=
  GatherDims.offCoord_eq_zero _ _ _ (fun h => ((GatherDims.mem_sKept _ _).mp h).1 (List.mem_singleton.mpr rfl))

theorem offCoord_col (j : (⟨2, ![B, W]⟩ : Shape).Idx) : (rows2Dims N B W wf).offCoord j 1 = (j 1).val := by
  unfold GatherDims.offCoord
  have h : (1 : Fin 2) ∈ (rows2Dims N B W wf).sKept :=
    (GatherDims.mem_sKept _ _).mpr ⟨show ¬ (1 : Fin 2) ∈ ([0] : List (Fin 2)) by decide, List.not_mem_nil⟩
  rw [dif_pos h]
  rfl

theorem gather_rows2_apply (hN : 0 < N) (x : (⟨2, ![N, W]⟩ : Shape).Idx → α) (idx : IVec ⟨2, ![B, 1]⟩ w)
    (b : Fin B) (n : Fin W) :
    Host.gather (rows2Dims N B W wf) x idx (ix2 b n)
      = x (ix2 ⟨min (idx (rowIdx b)).toInt.toNat (N - 1), by omega⟩ n) := by
  unfold Host.gather
  refine congrArg x (funext (Fin.forall_fin_two.2 ⟨Fin.ext ?_, Fin.ext ?_⟩))
  · show _ + _ + _ = _
    rw [GatherDims.batchCoord_eq_zero _ _ _ List.not_mem_nil, offCoord_row, start_row]
    rfl
  · show _ + _ + _ = _
    rw [GatherDims.batchCoord_eq_zero _ _ _ List.not_mem_nil, offCoord_col, start_col]
    exact Nat.zero_add _

end Idealize.ShloMosaic.GatherRows2
-- ==== Proof.KI.Host2.lean ====
import proofs.«430192_j18786186952966_1_alg».proof.Proof.Gen.KernelIdeal.Regions
import proofs.«430192_j18786186952966_1_alg».proof.Proof.Spec
import proofs.«430192_j18786186952966_1_alg».proof.Proof.PreFacts
import proofs.«430192_j18786186952966_1_alg».proof.Proof.LibGatherRows2
import Idealize.ShloMosaic.Lib.ValueLayout

set_option maxRecDepth 16384

noncomputable section

namespace Cert.KernelIdeal.HostV

open Idealize.ShloMosaic Idealize.ShloMosaic.TcCoe Idealize.ShloMosaic.ValueIdx
open Idealize.ShloMosaic.GatherRows2
open Cert.KernelIdeal Cert.KernelIdeal.Gen Cert.Spec

-- A vector laid along the rows of an [n × m] array reads, at any index, the vector at the index's row.
theorem bcast_dim0_apply {α : Type} {n m : Nat} (h : (⟨1, ![n]⟩ : Shape).BroadcastsInDim ⟨2, ![n, m]⟩ ![0])
    (v : (⟨1, ![n]⟩ : Shape).Idx → α) (j : (⟨2, ![n, m]⟩ : Shape).Idx) :
    broadcastInDim ⟨2, ![n, m]⟩ ![0] h v j = v (ix1 (j 0)) := by
  simp only [broadcastInDim]
  congr 1
  funext a
  match a with
  | ⟨0, _⟩ =>
    apply Fin.ext
    have hp := idx2_lt0 j
    split
    · next h1 => change n = 1 at h1; show (0 : Nat) = (j 0).val; omega
    · rfl

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) (fun n => hx _) _

theorem word_cmps (w : BitVec 32) (h : w.toNat < 50000) :
    IntOp.cmpi .slt w 0#32 = 0#1 ∧ IntOp.cmpi .sge w 0#32 = 1#1 ∧ IntOp.cmpi .sle w 49999#32 = 1#1 := by
  have hw := Cert.PreFacts.toInt_eq_toNat_of_lt w h
  have e0 : (0#32 : BitVec 32).toInt = 0 := by decide
  have e1 : (49999#32 : BitVec 32).toInt = 49999 := by decide
  refine ⟨eq_zero_of_ne_one fun hc => ?_, IntOp.cmpi_sge.2 ?_, IntOp.cmpi_sle.2 ?_⟩
  · have := IntOp.cmpi_slt.1 hc
    rw [hw, e0] at this; omega
  · rw [hw, e0]; omega
  · rw [hw, e1]; omega

def wrapIdx (idx : IVec S600000 32) : IVec S600000 32 :=
  select (cmpi .slt idx (broadcastInDim S600000 ![] Facts₀.bcast_S_S600000 (constantI S_ 32 0#32)))
    (addi idx (broadcastInDim S600000 ![] Facts₀.bcast_S_S600000 (constantI S_ 32 50000#32))) idx

def colIdx (idx : IVec S600000 32) : IVec S600000x1 32 :=
  broadcastInDim S600000x1 ![0] Facts₀.bcast_S600000_S600000x1_0 (wrapIdx idx)

def inRange (c : IVec S600000x1 32) : IVec S600000 1 :=
  Host.reduce IntOp.andi
    (andi (cmpi .sge c (broadcastInDim S600000x1 ![] Facts₀.bcast_S_S600000x1 (constantI S_ 32 0#32)))
      (cmpi .sle c (broadcastInDim S600000x1 ![0, 1] Facts₀.bcast_S1x1_S600000x1_0_1
        (broadcastInDim S1x1 ![1] Facts₀.bcast_S1_S1x1_1 (constantI S1 32 49999#32)))))
    (constantI S_ 1 1#1) Facts₀.reducesTo_S600000x1_S600000_d1 Facts₀.h_S_

def takeFn (x : FVec Ideal S50000x128 .f32) (idx : IVec S600000 32) : FVec Ideal S600000x128 .f32 :=
  select (broadcastInDim S600000x128 ![0] Facts₀.bcast_S600000_S600000x128_0 (inRange (colIdx idx)))
    (Host.gather gather_S50000x128_S600000x1_S600000x128_1_0_n_n_0_1_1128 x (colIdx idx))
    (broadcastInDim S600000x128 ![] Facts₀.bcast_S_S600000x128 (constant (F := Ideal) S_ .f32 0x7FC00000#32))

section
variable (idx : IVec S600000 32) (hidx : ∀ i, (idx i).toNat < 50000)
include hidx

theorem wrapIdx_eq : wrapIdx idx = idx := by
  funext i
  show Scalar.select (IntOp.cmpi .slt (idx i) 0#32) (IntOp.addi (idx i) 50000#32) (idx i) = idx i
  rw [(word_cmps (idx i) (hidx i)).1, select_zero]

theorem colIdx_apply (j : S600000x1.Idx) : colIdx idx j = idx (ix1 (j 0)) := by
  unfold colIdx
  rw [wrapIdx_eq idx hidx]
  exact bcast_dim0_apply _ idx j

theorem inRange_eq (e : S600000.Idx) : inRange (colIdx idx) e = 1#1 := by
  unfold inRange
  refine reduce_andi_one _ _ _ _ (fun j => ?_) (fun _ => rfl) e
  show IntOp.andi (IntOp.cmpi .sge (colIdx idx j) 0#32) (IntOp.cmpi .sle (colIdx idx j) 49999#32) = 1#1
  rw [colIdx_apply idx hidx j]
  obtain ⟨-, h1, h2⟩ := word_cmps (idx (ix1 (j 0))) (hidx _)
  rw [h1, h2]; decide

theorem takeFn_apply (x : FVec Ideal S50000x128 .f32) (e : Fin 600000) (d : Fin 128) :
    takeFn x idx (ix2 e d) = x (ix2 ⟨(idx (ix1 e)).toNat, hidx _⟩ d) := by
  unfold takeFn
  rw [select_apply, bcast_dim0_apply, inRange_eq idx hidx, select_one]
  refine (gather_rows2_apply (by decide) (by decide) x (colIdx idx) e d).trans ?_
  have hc : colIdx idx (rowIdx e) = idx (ix1 e) := colIdx_apply idx hidx _
  have hw := Cert.PreFacts.toInt_eq_toNat_of_lt _ (hidx (ix1 e))
  have hlt := hidx (ix1 e)
  refine congrArg x (congrArg (fun r => ix2 r d) (Fin.ext ?_))
  show min (colIdx idx (rowIdx e)).toInt.toNat (50000 - 1) = (idx (ix1 e)).toNat
  rw [hc, hw, Int.toNat_natCast]
  omega

end

section
variable (W : Valuation τ sig (Elt Ideal))

theorem ops2_v4 (e : Fin 600000) : (StableHlo.after hostOps2 W main_v4) (ix1 e) = (W main_arg8) (ix2 0 e) := by
  have h : StableHlo.after hostOps2 W main_v4
      = shapeCast S600000 (extractStridedSlice S1x600000 ![0, 0] (W main_arg8) Facts₀.slices_S2x600000_S1x600000_0_0)
          Facts₀.shapeCasts_S1x600000_S600000 := by
    show StableHlo.after hostOps2 W (Proc.devRef .tc main_v4) = _
    after_results
    rfl
  rw [h, shapeCast_1a_a_apply]
  exact slice2_axis0_apply 0 _ _ (0 : Fin 1) e (0 : Fin 2) rfl

theorem ops2_v6 (e : Fin 600000) : (StableHlo.after hostOps2 W main_v6) (ix1 e) = (W main_arg8) (ix2 1 e) := by
  have h : StableHlo.after hostOps2 W main_v6
      = shapeCast S600000 (extractStridedSlice S1x600000 ![1, 0] (W main_arg8) Facts₀.slices_S2x600000_S1x600000_1_0)
          Facts₀.shapeCasts_S1x600000_S600000 := by
    show StableHlo.after hostOps2 W (Proc.devRef .tc main_v6) = _
    after_results
    rfl
  rw [h, shapeCast_1a_a_apply]
  exact slice2_axis0_apply 1 _ _ (0 : Fin 1) e (1 : Fin 2) rfl

theorem ops2_1_v7 : StableHlo.after hostOps2_1 W main_v7 = takeFn (W main_v1_1) (W main_v4) := by
  show StableHlo.after hostOps2_1 W (Proc.devRef .tc main_v7) = _
  after_results_simp
  simp only [StableHlo.TRef.ofBuf, StableHlo.TRef.toBuf, cast_eq]
  unfold takeFn inRange colIdx wrapIdx
  rfl

theorem ops2_2_v8 : StableHlo.after hostOps2_2 W main_v8 = takeFn (W main_v1_0) (W main_v6) := by
  show StableHlo.after hostOps2_2 W (Proc.devRef .tc main_v8) = _
  after_results_simp
  simp only [StableHlo.TRef.ofBuf, StableHlo.TRef.toBuf, cast_eq]
  unfold takeFn inRange colIdx wrapIdx
  rfl

theorem ops2_3_v9 : StableHlo.after hostOps2_3 W main_v9 = takeFn (W main_v1_2) (W main_v4) := by
  show StableHlo.after hostOps2_3 W (Proc.devRef .tc main_v9) = _
  after_results_simp
  simp only [StableHlo.TRef.ofBuf, StableHlo.TRef.toBuf, cast_eq]
  unfold takeFn inRange colIdx wrapIdx
  rfl

theorem keep2 (r : Ref sig .tc) (h : r ∉ hostOps2_W) : StableHlo.after hostOps2 W r = W r :=
  StableHlo.after_of_writes_sub hostOps2 W hostOps2_writes h
theorem keep2_1 (r : Ref sig .tc) (h : r ∉ hostOps2_1_W) : StableHlo.after hostOps2_1 W r = W r :=
  StableHlo.after_of_writes_sub hostOps2_1 W hostOps2_1_writes h
theorem keep2_2 (r : Ref sig .tc) (h : r ∉ hostOps2_2_W) : StableHlo.after hostOps2_2 W r = W r :=
  StableHlo.after_of_writes_sub hostOps2_2 W hostOps2_2_writes h
theorem keep2_3 (r : Ref sig .tc) (h : r ∉ hostOps2_3_W) : StableHlo.after hostOps2_3 W r = W r :=
  StableHlo.after_of_writes_sub hostOps2_3 W hostOps2_3_writes h

end

section
variable (W : Valuation τ sig (Elt Ideal)) (hr : ∀ i, ((W main_arg8) i).toNat < 50000)

abbrev W7 : Valuation τ sig (Elt Ideal) :=
  StableHlo.after hostOps2_3 (StableHlo.after hostOps2_2 (StableHlo.after hostOps2_1 (StableHlo.after hostOps2 W)))

include hr

theorem v4_lt (i : S600000.Idx) : ((StableHlo.after hostOps2 W main_v4) i).toNat < 50000 := by
  obtain ⟨e, rfl⟩ : ∃ e : Fin 600000, i = ix1 e := ⟨i 0, eq_ix1 i⟩
  rw [ops2_v4]; exact hr _

theorem v6_lt (i : S600000.Idx) : ((StableHlo.after hostOps2 W main_v6) i).toNat < 50000 := by
  obtain ⟨e, rfl⟩ : ∃ e : Fin 600000, i = ix1 e := ⟨i 0, eq_ix1 i⟩
  rw [ops2_v6]; exact hr _

theorem h2_ksrc (e : Fin 600000) (d : Fin 128) :
    (W7 W main_v7) (ix2 e d) = (W main_v1_1) (ix2 (rowOf (W main_arg8) hr 0 e) d) := by
  have h : W7 W main_v7 = takeFn (W main_v1_1) (StableHlo.after hostOps2 W main_v4) := by
    dsimp only [W7]
    rw [keep2_3 _ main_v7 (by decide), keep2_2 _ main_v7 (by decide), ops2_1_v7, keep2 W main_v1_1 (by decide)]
  rw [h, takeFn_apply _ (v4_lt W hr)]
  exact congrArg (fun r : Fin 50000 => (W main_v1_1) (ix2 r d)) (Fin.ext (by show (_ : BitVec 32).toNat = _; rw [ops2_v4]; rfl))

theorem h2_qdst (e : Fin 600000) (d : Fin 128) :
    (W7 W main_v8) (ix2 e d) = (W main_v1_0) (ix2 (rowOf (W main_arg8) hr 1 e) d) := by
  have h : W7 W main_v8 = takeFn (W main_v1_0) (StableHlo.after hostOps2 W main_v6) := by
    dsimp only [W7]
    rw [keep2_3 _ main_v8 (by decide), ops2_2_v8, keep2_1 _ main_v1_0 (by decide), keep2 W main_v1_0 (by decide),
      keep2_1 _ main_v6 (by decide)]
  rw [h, takeFn_apply _ (v6_lt W hr)]
  exact congrArg (fun r : Fin 50000 => (W main_v1_0) (ix2 r d)) (Fin.ext (by show (_ : BitVec 32).toNat = _; rw [ops2_v6]; rfl))

theorem h2_vsrc (e : Fin 600000) (d : Fin 128) :
    (W7 W main_v9) (ix2 e d) = (W main_v1_2) (ix2 (rowOf (W main_arg8) hr 0 e) d) := by
  have h : W7 W main_v9 = takeFn (W main_v1_2) (StableHlo.after hostOps2 W main_v4) := by
    dsimp only [W7]
    rw [ops2_3_v9, keep2_2 _ main_v1_2 (by decide), keep2_1 _ main_v1_2 (by decide), keep2 W main_v1_2 (by decide),
      keep2_2 _ main_v4 (by decide), keep2_1 _ main_v4 (by decide)]
  rw [h, takeFn_apply _ (v4_lt W hr)]
  exact congrArg (fun r : Fin 50000 => (W main_v1_2) (ix2 r d)) (Fin.ext (by show (_ : BitVec 32).toNat = _; rw [ops2_v4]; rfl))

omit hr in
theorem h2_dst (e : Fin 600000) : (W7 W main_v6) (ix1 e) = (W main_arg8) (ix2 1 e) := by
  dsimp only [W7]
  rw [keep2_3 _ main_v6 (by decide), keep2_2 _ main_v6 (by decide), keep2_1 _ main_v6 (by decide)]
  exact ops2_v6 W e

omit hr in
theorem h2_keep (r : Ref sig .tc) (hr' : r ∉ hostOps2_W ++ hostOps2_1_W ++ hostOps2_2_W ++ hostOps2_3_W) : W7 W r = W r := by
  simp only [List.mem_append, not_or] at hr'
  obtain ⟨⟨⟨h0, h1⟩, h2⟩, h3⟩ := hr'
  dsimp only [W7]
  rw [keep2_3 _ r h3, keep2_2 _ r h2, keep2_1 _ r h1, keep2 W r h0]

end

end Cert.KernelIdeal.HostV

end
-- ==== Proof.KI.Val3.lean ====
import proofs.«430192_j18786186952966_1_alg».proof.Proof.KI.Data
import proofs.«430192_j18786186952966_1_alg».proof.Proof.KI.Final2
import proofs.«430192_j18786186952966_1_alg».proof.Proof.KI.Host2
import proofs.«430192_j18786186952966_1_alg».proof.Proof.KI.ValArgs

noncomputable section

open scoped BigOperators

namespace Cert.KernelIdeal.ValV

open Idealize.ShloMosaic Idealize.ShloMosaic.TcCoe Idealize.SL.Sem
open Cert.KernelIdeal Cert.KernelIdeal.Gen Cert.KernelIdeal.Hand Cert.KernelIdeal.HandV Cert.KernelIdeal.HostV Cert.Spec
  Idealize.ShloMosaic.ValueIdx

variable (m : (ℓ : Loc nD τ sig) → Buf (Elt Ideal) ℓ) (c : Dev nD)

theorem V3_arg8 : (Gen.V3 m (outs m) c main_arg8 : IVec S2x600000 32) = aEI m c :=
  (Gen.V3_of m (outs m) c main_arg8 (by decide)).trans <| (Gen.V2_of m (outs m) c main_arg8 (by decide)).trans <|
    (Gen.V1_of m c main_arg8 (by decide)).trans rfl

theorem en2_at (r : Ref sig .tc) : En2 m c r = W7 (Gen.V3 m (outs m) c) r := (congrFun (Ent2_eq m c) r).symm

variable (hr : ∀ i, (aEI m c i).toNat < 50000)
  (hq : ∀ n j, (Gen.V2 m (outs m) c main_v1_0) (ix2 n j) = proj (aX m c) (aWQ m c) n j)
  (hk : ∀ n j, (Gen.V2 m (outs m) c main_v1_1) (ix2 n j) = proj (aX m c) (aWK m c) n j)
  (hv : ∀ n j, (Gen.V2 m (outs m) c main_v1_2) (ix2 n j) = proj (aX m c) (aWV m c) n j)
  (heh : ∀ e j, (Gen.V3 m (outs m) c main_v2) (ix2 e j) = proj (aEA m c) (aWE m c) e j)
  (hsum : ∀ d h, (Gen.V1 m c main_cst) (ix2 d h) = ind d h)
  (hspread : ∀ h d, (Gen.V1 m c main_cst_0) (ix2 h d) = ind d h)

include hr in
theorem hr3 : ∀ i, ((Gen.V3 m (outs m) c main_arg8 : IVec S2x600000 32) i).toNat < 50000 := by
  rw [V3_arg8 m c]; exact hr

-- A row of the edge list as node numbers depends on the list only.
theorem row3 (r : Fin 2) (e : Fin 600000) :
    rowOf (Gen.V3 m (outs m) c main_arg8 : IVec S2x600000 32) (hr3 m c hr) r e = rowOf (aEI m c) hr r e :=
  Fin.ext (congrArg (fun a : IVec S2x600000 32 => (a (ix2 r e)).toNat) (V3_arg8 m c))

include hk in
theorem x2_0_at (e : Fin 600000) (d : Fin 128) :
    x2_0 (En2 m) c (ix2 e d) = proj (aX m c) (aWK m c) (aSrc m c hr e) d := by
  show En2 m c main_v7 (ix2 e d) = _
  rw [en2_at m c main_v7, h2_ksrc (Gen.V3 m (outs m) c) (hr3 m c hr) e d, Gen.V3_of m (outs m) c main_v1_1 (by decide), hk,
    row3 m c hr 0 e]

include hq in
theorem x2_1_at (e : Fin 600000) (d : Fin 128) :
    x2_1 (En2 m) c (ix2 e d) = proj (aX m c) (aWQ m c) (aDst m c hr e) d := by
  show En2 m c main_v8 (ix2 e d) = _
  rw [en2_at m c main_v8, h2_qdst (Gen.V3 m (outs m) c) (hr3 m c hr) e d, Gen.V3_of m (outs m) c main_v1_0 (by decide), hq,
    row3 m c hr 1 e]

include hv in
theorem x2_3_at (e : Fin 600000) (d : Fin 128) :
    x2_3 (En2 m) c (ix2 e d) = proj (aX m c) (aWV m c) (aSrc m c hr e) d := by
  show En2 m c main_v9 (ix2 e d) = _
  rw [en2_at m c main_v9, h2_vsrc (Gen.V3 m (outs m) c) (hr3 m c hr) e d, Gen.V3_of m (outs m) c main_v1_2 (by decide), hv,
    row3 m c hr 0 e]

include heh in
theorem x2_2_at (e : Fin 600000) (d : Fin 128) : x2_2 (En2 m) c (ix2 e d) = proj (aEA m c) (aWE m c) e d := by
  show En2 m c main_v2 (ix2 e d) = _
  rw [en2_at m c main_v2, h2_keep (Gen.V3 m (outs m) c) main_v2 (by decide), heh]

include hsum in
theorem x2_4_at (d : Fin 128) (h : Fin 8) : x2_4 (En2 m) c (ix2 d h) = ind d h := by
  show En2 m c main_cst (ix2 d h) = _
  rw [en2_at m c main_cst, h2_keep (Gen.V3 m (outs m) c) main_cst (by decide), Gen.V3_of m (outs m) c main_cst (by decide),
    Gen.V2_of m (outs m) c main_cst (by decide), hsum]

include hspread in
theorem x2_5_at (h : Fin 8) (d : Fin 128) : x2_5 (En2 m) c (ix2 h d) = ind d h := by
  show En2 m c main_cst_0 (ix2 h d) = _
  rw [en2_at m c main_cst_0, h2_keep (Gen.V3 m (outs m) c) main_cst_0 (by decide),
    Gen.V3_of m (outs m) c main_cst_0 (by decide), Gen.V2_of m (outs m) c main_cst_0 (by decide), hspread]

include hq hk heh hsum in
theorem score2_eq (e : Fin 600000) (h : Fin 8) :
    score2 (En2 m) c e h = K.score (aX m c) (aEA m c) (aWQ m c) (aWK m c) (aWE m c) (aSrc m c hr) (aDst m c hr) e h := by
  unfold score2 K.score
  refine congrArg Ideal.exp (congrArg (min c5) (congrArg (max cM5) (Finset.sum_congr rfl fun d _ => ?_)))
  rw [x2_0_at m c hr hk e d, x2_1_at m c hr hq e d, x2_2_at m c heh e d, x2_4_at m c hsum d h]

include hq hk heh hsum in
theorem val_score (e : Fin 600000) (h : Fin 8) :
    (Gen.V8 m (outs m) c main_v10_1) (ix2 e h)
      = K.score (aX m c) (aEA m c) (aWQ m c) (aWK m c) (aWE m c) (aSrc m c hr) (aDst m c hr) e h := by
  have h1 : Gen.V8 m (outs m) c main_v10_1 = (dat2 (En2 m) c).arrAt 7 cfg2.N := (hF2 m c 7).symm
  rw [h1, final2_7 (En2 m) c]
  exact score2_eq m c hr hq hk heh hsum e h

include hq hk hv heh hsum hspread in
theorem val_msg (e : Fin 600000) (d : Fin 128) :
    (Gen.V8 m (outs m) c main_v10_0) (ix2 e d)
      = K.msg (aX m c) (aEA m c) (aWQ m c) (aWK m c) (aWV m c) (aWE m c) (aSrc m c hr) (aDst m c hr) e d := by
  have h1 : Gen.V8 m (outs m) c main_v10_0 = (dat2 (En2 m) c).arrAt 6 cfg2.N := (hF2 m c 6).symm
  rw [h1, final2_6 (En2 m) c]
  show x2_3 (En2 m) c (ix2 e d) * ∑ h : Fin 8, score2 (En2 m) c e h * x2_5 (En2 m) c (ix2 h d) = _
  unfold K.msg
  rw [x2_3_at m c hr hv e d]
  refine congrArg (proj (aX m c) (aWV m c) (aSrc m c hr e) d * ·) (Finset.sum_congr rfl fun h _ => ?_)
  rw [score2_eq m c hr hq hk heh hsum e h, x2_5_at m c hspread h d]

theorem val_dst (e : Fin 600000) :
    (Gen.V8 m (outs m) c main_v6) (ix1 e) = aEI m c (ix2 1 e) := by
  rw [Gen.V8_of m (outs m) c main_v6 (by decide)]
  show W7 (Gen.V3 m (outs m) c) main_v6 (ix1 e) = _
  rw [h2_dst (Gen.V3 m (outs m) c) e, V3_arg8 m c]

end Cert.KernelIdeal.ValV

end
-- ==== Proof.LibScatterRows.lean ====
import Idealize.ShloMosaic.Lib.ValueIdx

noncomputable section

open scoped BigOperators

namespace Idealize.ShloMosaic.ScatterRows

open Idealize.ShloMosaic Idealize.ShloMosaic.ValueIdx

variable {N B W w : Nat}

abbrev rowDims (N B W : Nat) (wf : ScatterDims.WF ⟨2, ![N, W]⟩ ⟨2, ![B, 1]⟩ ⟨2, ![B, W]⟩ [1] [0] [0] 1) :
    ScatterDims ⟨2, ![N, W]⟩ ⟨2, ![B, 1]⟩ ⟨2, ![B, W]⟩ where
  updateWindowDims := [1]
  insertedWindowDims := [0]
  scatterDimsToOperandDims := [0]
  indexVectorDim := 1
  wf := wf

variable (wf : ScatterDims.WF ⟨2, ![N, W]⟩ ⟨2, ![B, 1]⟩ ⟨2, ![B, W]⟩ [1] [0] [0] 1)

abbrev rowIdx (b : Fin B) : (⟨2, ![B, 1]⟩ : Shape).Idx := ix2 b ⟨0, Nat.one_pos⟩

theorem start_row (j : (⟨2, ![B, W]⟩ : Shape).Idx) (idx : IVec ⟨2, ![B, 1]⟩ w) :
    (rowDims N B W wf).start j idx 0 = (idx (rowIdx (j 0))).toInt := by
  unfold ScatterDims.start
  rw [dif_pos (show (0 : Fin 2) ∈ (rowDims N B W wf).scatterDimsToOperandDims from List.mem_singleton.mpr rfl)]
  have hsi : (rowDims N B W wf).siIdx j ⟨List.idxOf (0 : Fin 2) (rowDims N B W wf).scatterDimsToOperandDims,
      List.idxOf_lt_length_iff.2 (List.mem_singleton.mpr rfl)⟩ = rowIdx (j 0) := by
    funext b; refine Fin.ext ?_
    match b with
    | ⟨0, _⟩ => rfl
    | ⟨1, _⟩ => rfl
  rw [hsi]
  rfl

theorem start_col (j : (⟨2, ![B, W]⟩ : Shape).Idx) (idx : IVec ⟨2, ![B, 1]⟩ w) :
    (rowDims N B W wf).start j idx 1 = 0 := by
  unfold ScatterDims.start
  rw [dif_neg (show ¬ (1 : Fin 2) ∈ ([0] : List (Fin 2)) by decide)]

theorem window_row (j : (⟨2, ![B, W]⟩ : Shape).Idx) : (rowDims N B W wf).window j 0 = 0 := by
  unfold ScatterDims.window
  have h : ¬ (0 : Fin 2) ∈ (rowDims N B W wf).sKept := by
    show ¬ (0 : Fin 2) ∈ (List.finRange 2).filter (· ∉ ([0] : List (Fin 2)))
    decide
  rw [dif_neg h]

theorem window_col (j : (⟨2, ![B, W]⟩ : Shape).Idx) : (rowDims N B W wf).window j 1 = (j 1).val := by
  unfold ScatterDims.window
  have h : (1 : Fin 2) ∈ (rowDims N B W wf).sKept := by
    show (1 : Fin 2) ∈ (List.finRange 2).filter (· ∉ ([0] : List (Fin 2)))
    decide
  rw [dif_pos h]
  rfl

theorem resultIdx?_eq_some_iff (j : (⟨2, ![B, W]⟩ : Shape).Idx) (idx : IVec ⟨2, ![B, 1]⟩ w) (i : (⟨2, ![N, W]⟩ : Shape).Idx) :
    (rowDims N B W wf).resultIdx? j idx = some i ↔ (idx (rowIdx (j 0))).toInt = ((i 0).val : Int) ∧ (j 1).val = (i 1).val := by
  have hi0 : (i 0).val < N := (i 0).isLt
  have hi1 : (i 1).val < W := (i 1).isLt
  have hj1 : (j 1).val < W := (j 1).isLt
  have c0 : (rowDims N B W wf).start j idx 0 + ((rowDims N B W wf).window j 0 : Int) = (idx (rowIdx (j 0))).toInt := by
    rw [start_row, window_row]; exact Int.add_zero _
  have c1 : (rowDims N B W wf).start j idx 1 + ((rowDims N B W wf).window j 1 : Int) = ((j 1).val : Int) := by
    rw [start_col, window_col]; exact Int.zero_add _
  unfold ScatterDims.resultIdx?
  split
  · rename_i h
    have hb0 := h 0
    have hb1 := h 1
    rw [c0] at hb0
    rw [c1] at hb1
    constructor
    · intro he
      have he' := Option.some.inj he
      have h0 := congrArg (fun f => (f 0).val) he'
      have h1 := congrArg (fun f => (f 1).val) he'
      simp only [c0, c1] at h0 h1
      constructor <;> omega
    · rintro ⟨h0, h1⟩
      refine congrArg some (funext (Fin.forall_fin_two.2 ⟨Fin.ext ?_, Fin.ext ?_⟩))
      · simp only [c0]; omega
      · simp only [c1]; omega
  · rename_i h
    refine ⟨fun he => absurd he (by simp), fun ⟨h0, h1⟩ => (h (Fin.forall_fin_two.2 ⟨?_, ?_⟩)).elim⟩
    · show _ ∧ _ < (N : Int); rw [c0]; omega
    · show _ ∧ _ < (W : Int); rw [c1]; omega

theorem hostScatterAdd_rows_apply (x : (⟨2, ![N, W]⟩ : Shape).Idx → EReal) (idx : IVec ⟨2, ![B, 1]⟩ w)
    (upd : (⟨2, ![B, W]⟩ : Shape).Idx → EReal) (c : Fin N) (n : Fin W) :
    Ideal.hostScatterAdd (rowDims N B W wf) x idx upd (ix2 c n)
      = x (ix2 c n) + ∑ b : Fin B, if (idx (rowIdx b)).toInt = (c.val : Int) then upd (ix2 b n) else 0 := by
  unfold Ideal.hostScatterAdd
  congr 1
  rw [Finset.sum_filter, sum_idx2]
  refine Finset.sum_congr rfl fun b _ => ?_
  rw [Finset.sum_eq_single n]
  · simp only [resultIdx?_eq_some_iff]
    show (if (idx (rowIdx b)).toInt = (c.val : Int) ∧ n.val = n.val then upd (ix2 b n) else 0) = _
    simp only [and_true]
  · intro n' _ hne
    rw [if_neg]
    rw [resultIdx?_eq_some_iff]
    rintro ⟨_, h1⟩
    exact hne (Fin.ext h1)
  · intro h; exact absurd (Finset.mem_univ n) h

end Idealize.ShloMosaic.ScatterRows

end
-- ==== Proof.KI.Host3.lean ====
import proofs.«430192_j18786186952966_1_alg».proof.Proof.Gen.KernelIdeal.Launch
import proofs.«430192_j18786186952966_1_alg».proof.Proof.Spec
import proofs.«430192_j18786186952966_1_alg».proof.Proof.PreFacts
import proofs.«430192_j18786186952966_1_alg».proof.Proof.LibScatterRows
import Idealize.ShloMosaic.Lib.IdealHost
import Idealize.ShloMosaic.Lib.Pipeline.Value

set_option maxRecDepth 16384

noncomputable section

namespace Cert.KernelIdeal.HostV

open Idealize.ShloMosaic Idealize.ShloMosaic.TcCoe Idealize.ShloMosaic.ValueIdx
open Cert.KernelIdeal Cert.KernelIdeal.Gen Cert.Spec
open scoped BigOperators

namespace H3

theorem zeros_apply {T : Shape} (h : (⟨0, ![]⟩ : Shape).BroadcastsInDim T ![]) (j : T.Idx) :
    broadcastInDim T ![] h (constant (F := Ideal) ⟨0, ![]⟩ .f32 0x00000000#32) j = (0 : EReal) := by
  rw [broadcastInDim_scalar_apply, constant_apply, Ideal.ofBits_zero_f32]

theorem col_apply (h : S600000.BroadcastsInDim S600000x1 ![0]) (v : IVec S600000 32) (e : Fin 600000) :
    broadcastInDim S600000x1 ![0] h v (ScatterRows.rowIdx e) = v (ix1 e) := by
  refine broadcastInDim_apply _ h v _ (ix1 e) ?_
  intro a
  match a with
  | ⟨0, _⟩ => rfl

-- A row scatter-add into zeros at (n, d): the sum, from zero, of column d of the update rows whose destination is n.
theorem scat_apply {Wd : Nat} (dm : ScatterDims ⟨2, ![50000, Wd]⟩ ⟨2, ![600000, 1]⟩ ⟨2, ![600000, Wd]⟩)
    (wf : ScatterDims.WF ⟨2, ![50000, Wd]⟩ ⟨2, ![600000, 1]⟩ ⟨2, ![600000, Wd]⟩ [1] [0] [0] 1)
    (hdm : dm = ScatterRows.rowDims 50000 600000 Wd wf)
    (hz : (⟨0, ![]⟩ : Shape).BroadcastsInDim ⟨2, ![50000, Wd]⟩ ![])
    (hc : S600000.BroadcastsInDim S600000x1 ![0])
    (v : IVec S600000 32) (hr : ∀ e : Fin 600000, (v (ix1 e)).toNat < 50000)
    (u : FVec Ideal ⟨2, ![600000, Wd]⟩ .f32) (n : Fin 50000) (d : Fin Wd) :
    Host.scatterAdd (F := Ideal) dm
        (broadcastInDim ⟨2, ![50000, Wd]⟩ ![] hz (constant (F := Ideal) ⟨0, ![]⟩ .f32 0x00000000#32))
        (broadcastInDim S600000x1 ![0] hc v) u (ix2 n d)
      = segsum (fun e => ⟨(v (ix1 e)).toNat, hr e⟩) (fun e => u (ix2 e d)) n := by
  subst hdm
  unfold Host.scatterAdd
  rw [Ideal.hostScatterAdd_def, ScatterRows.hostScatterAdd_rows_apply, zeros_apply]
  unfold segsum
  refine congrArg (fun s => (0 : EReal) + s) ?_
  refine Finset.sum_congr rfl fun e _ => ?_
  rw [col_apply]
  have ht := Cert.PreFacts.toInt_eq_toNat_of_lt (v (ix1 e)) (hr e)
  by_cases hc' : (⟨(v (ix1 e)).toNat, hr e⟩ : Fin 50000) = n
  · rw [if_pos hc', if_pos]
    rw [ht, ← hc']
  · rw [if_neg hc', if_neg]
    intro hh
    apply hc'
    apply Fin.ext
    show (v (ix1 e)).toNat = n.val
    rw [ht] at hh
    exact_mod_cast hh

theorem tail_apply (hsc1 : S50000x128.ShapeCasts S50000x8x16) (hsc2 : S50000x8x16.ShapeCasts S50000x128)
    (hb1 : S50000x8.BroadcastsInDim S50000x8x1 ![0, 1]) (hb0 : S_.BroadcastsInDim S50000x8x1 ![])
    (hb2 : S50000x8x1.BroadcastsInDim S50000x8x16 ![0, 1, 2])
    (x0 a : FVec Ideal S50000x128 .f32) (z : FVec Ideal S50000x8 .f32) (n : Fin 50000) (d : Fin 128) :
    addf x0 (shapeCast S50000x128
        (Host.divf (shapeCast S50000x8x16 a hsc1)
          (broadcastInDim S50000x8x16 ![0, 1, 2] hb2
            (addf (broadcastInDim S50000x8x1 ![0, 1] hb1 z)
              (broadcastInDim S50000x8x1 ![] hb0 (constant (F := Ideal) S_ .f32 0x358637BD#32))))) hsc2) (ix2 n d)
      = x0 (ix2 n d) + Ideal.div (a (ix2 n d)) (z (ix2 n (hd d)) + cEps6) := by
  have hd16 : (hd d).val = d.val / 16 := rfl
  have lo16 : (lo d).val = d.val % 16 := rfl
  have hpos : (S50000x8x16.rowMajor (ix3 n (hd d) (lo d))).val = (S50000x128.rowMajor (ix2 n d)).val := by
    rw [Shape.rowMajor_val_three, Shape.rowMajor_val_two]
    show (n.val * 8 + (hd d).val) * 16 + (lo d).val = n.val * 128 + d.val
    rw [hd16, lo16]; omega
  rw [addf_apply]
  refine congrArg (x0 (ix2 n d) + ·) ?_
  refine (shapeCast_apply _ hsc2 (ix2 n d) (ix3 n (hd d) (lo d)) hpos).trans ?_
  rw [hostDivf_apply]
  refine congrArg₂ Ideal.div ?_ ?_
  · exact shapeCast_apply _ hsc1 (ix3 n (hd d) (lo d)) (ix2 n d) hpos.symm
  · refine (broadcastInDim_apply ![0, 1, 2] hb2 _ (ix3 n (hd d) (lo d)) (ix3 n (hd d) (0 : Fin 1)) ?_).trans ?_
    · intro a
      match a with
      | ⟨0, _⟩ => rfl
      | ⟨1, _⟩ => rfl
      | ⟨2, _⟩ => rfl
    rw [addf_apply]
    refine congrArg₂ (· + ·) ?_ ?_
    · refine broadcastInDim_apply ![0, 1] hb1 z (ix3 n (hd d) (0 : Fin 1)) (ix2 n (hd d)) ?_
      intro a
      match a with
      | ⟨0, _⟩ => rfl
      | ⟨1, _⟩ => rfl
    · rw [broadcastInDim_scalar_apply, constant_apply]
      rfl

end H3

variable (W : Valuation τ sig (Elt Ideal))

theorem h3_h (hr : ∀ e : Fin 600000, ((W main_v6) (ix1 e)).toNat < 50000) (n : Fin 50000) (d : Fin 128) :
    (StableHlo.after hostOps3 W main_v24) (ix2 n d)
      = @HAdd.hAdd EReal EReal EReal _ ((W main_arg0) (ix2 n d))
          (Ideal.div (segsum (fun e => ⟨((W main_v6) (ix1 e)).toNat, hr e⟩) (fun e => (W main_v10_0) (ix2 e d)) n)
            (segsum (fun e => ⟨((W main_v6) (ix1 e)).toNat, hr e⟩) (fun e => (W main_v10_1) (ix2 e (hd d))) n + cEps6)) := by
  show StableHlo.after hostOps3 W (Proc.devRef .tc main_v24) (ix2 n d) = _
  after_results_simp
  refine (H3.tail_apply _ _ _ _ _ _ _ _ n d).trans ?_
  refine congrArg (fun s : EReal => @HAdd.hAdd EReal EReal EReal _ ((W main_arg0) (ix2 n d)) s) ?_
  refine congrArg₂ Ideal.div ?_ (congrArg (fun s : EReal => s + cEps6) ?_)
  · exact H3.scat_apply _ Facts₀.scatter_S50000x128_S600000x1_S600000x128_1_0_0_1_wf rfl _ _ (W main_v6) hr (W main_v10_0) n d
  · exact H3.scat_apply _ Facts₀.scatter_S50000x8_S600000x1_S600000x8_1_0_0_1_wf rfl _ _ (W main_v6) hr (W main_v10_1) n (hd d)

end Cert.KernelIdeal.HostV
end
-- ==== Proof.KI.Val4.lean ====
import proofs.«430192_j18786186952966_1_alg».proof.Proof.KI.Data
import proofs.«430192_j18786186952966_1_alg».proof.Proof.KI.Host3
import proofs.«430192_j18786186952966_1_alg».proof.Proof.KI.ValArgs

noncomputable section

namespace Cert.KernelIdeal.ValV

open Idealize.ShloMosaic Idealize.ShloMosaic.TcCoe Idealize.ShloMosaic.ValueIdx Idealize.SL.Sem
open Cert.KernelIdeal Cert.KernelIdeal.Gen Cert.KernelIdeal.Hand Cert.Spec

variable (m : (ℓ : Loc nD τ sig) → Buf (Elt Ideal) ℓ) (c : Dev nD)

theorem hh_V8_arg0 (o : Gen.Outs (F := Ideal)) : Gen.V8 m o c main_arg0 = m ((c.tc : Thread nD τ).loc main_arg0) :=
  (V8_of m o c main_arg0 (by decide)).trans <| (V7_of m o c main_arg0 (by decide)).trans <| (V6_of m o c main_arg0 (by decide)).trans <| (V5_of m o c main_arg0 (by decide)).trans <| (V4_of m o c main_arg0 (by decide)).trans <| (V3_of m o c main_arg0 (by decide)).trans <| (V2_of m o c main_arg0 (by decide)).trans <| (V1_of m c main_arg0 (by decide)).trans rfl

theorem hh_of_parts (x : Mat 50000 128) (ea : Mat 600000 128) (wq wk wv we : Mat 128 128) (src dst : Fin 600000 → Fin 50000)
    (n : Fin 50000) (d : Fin 128) (a0 : EReal) (dW : Fin 600000 → Fin 50000) (f g : Fin 600000 → EReal)
    (ha : a0 = x n d) (hdW : dW = dst) (hf : f = fun e => K.msg x ea wq wk wv we src dst e d)
    (hg : g = fun e => K.score x ea wq wk we src dst e (hd d)) :
    a0 + Ideal.div (segsum dW f n) (segsum dW g n + cEps6) = K.hh x ea wq wk wv we src dst n d := by
  subst ha hdW hf hg
  rfl

theorem val_hh (hr : ∀ i, (aEI m c i).toNat < 50000)
    (hscore : ∀ e h, (Gen.V8 m (outs m) c main_v10_1) (ix2 e h)
      = K.score (aX m c) (aEA m c) (aWQ m c) (aWK m c) (aWE m c) (aSrc m c hr) (aDst m c hr) e h)
    (hmsg : ∀ e d, (Gen.V8 m (outs m) c main_v10_0) (ix2 e d)
      = K.msg (aX m c) (aEA m c) (aWQ m c) (aWK m c) (aWV m c) (aWE m c) (aSrc m c hr) (aDst m c hr) e d)
    (hdst : ∀ e, (Gen.V8 m (outs m) c main_v6) (ix1 e) = (aEI m c) (ix2 1 e))
    (n : Fin 50000) (d : Fin 128) :
    (Gen.V9 m (outs m) c main_v24) (ix2 n d)
      = K.hh (aX m c) (aEA m c) (aWQ m c) (aWK m c) (aWV m c) (aWE m c) (aSrc m c hr) (aDst m c hr) n d := by
  have hrW : ∀ e : Fin 600000, ((Gen.V8 m (outs m) c main_v6) (ix1 e)).toNat < 50000 := fun e => by
    rw [hdst e]; exact hr _
  refine (HostV.h3_h (Gen.V8 m (outs m) c) hrW n d).trans ?_
  refine hh_of_parts _ _ _ _ _ _ _ _ n d _ _ _ _ ?_ ?_ ?_ ?_
  · exact congrArg (fun (v : FVec Ideal S50000x128 .f32) => v (ix2 n d)) (hh_V8_arg0 m c (outs m))
  · funext e
    apply Fin.ext
    show ((Gen.V8 m (outs m) c main_v6) (ix1 e)).toNat = ((aEI m c) (ix2 1 e)).toNat
    rw [hdst e]
  · exact funext fun e => hmsg e d
  · exact funext fun e => hscore e (hd d)

end Cert.KernelIdeal.ValV

end
-- ==== Proof.KI.Final3.lean ====
import proofs.«430192_j18786186952966_1_alg».proof.Proof.KI.Reg3
import proofs.«430192_j18786186952966_1_alg».proof.Proof.KI.Final3Math
import proofs.«430192_j18786186952966_1_alg».proof.Proof.Spec

set_option maxRecDepth 16384

noncomputable section

namespace Cert.KernelIdeal.HandV

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand
open scoped BigOperators

variable (V : (c : Dev nD) → (b : Ref sig .tc) → Buf (Elt Ideal) ((c : Thread nD τ).loc b))

abbrev res3_1 (c : Dev nD) : Buf (Elt Ideal) ((c : Thread nD τ).loc main_v25_0) :=
  (acc3 V c 9 (by have : cfg3.N = 10 := N_3; omega)).1

abbrev res3_2 (c : Dev nD) : Buf (Elt Ideal) ((c : Thread nD τ).loc main_v25_1) :=
  (acc3 V c 9 (by have : cfg3.N = 10 := N_3; omega)).2

theorem off3_1 : (fun a => win3_1.index t3_9 a * main_v25_0.ty.shape.size a) = fun _ => 0 := funext fun a => by fin_cases a <;> decide
theorem off3_2 : (fun a => win3_2.index t3_9 a * main_v25_1.ty.shape.size a) = fun _ => 0 := funext fun a => by fin_cases a <;> decide

theorem flushed3_1_eq (c : Dev nD) (t : Fin cfg3.N) (hf : (cfg3.win 1).flush t = true) :
    (dat3 V c).flushed 1 t = ((cfg3.win 1).blk t).view.read (Elt Ideal) (res3_1 V c) := by
  have hN : cfg3.N = 10 := N_3
  have h9 : t.val = 9 := by have := (flush3_1 t).mp hf; have := t.isLt; omega
  obtain rfl : t = t3_9 := Fin.ext h9
  show (cfg3.win 1).cut (grid3.coords t3_9) ((dat3 V c).after 1 t3_9) = _
  rw [after3_1_last V c t3_9 rfl]
  exact (Memref.read_access_unit_zero (Elt Ideal) main_v25_0 off3_1 (fun a => by rw [congrFun off3_1 a]; simp) (res3_1 V c)).symm

theorem flushed3_2_eq (c : Dev nD) (t : Fin cfg3.N) (hf : (cfg3.win 2).flush t = true) :
    (dat3 V c).flushed 2 t = ((cfg3.win 2).blk t).view.read (Elt Ideal) (res3_2 V c) := by
  have hN : cfg3.N = 10 := N_3
  have h9 : t.val = 9 := by have := (flush3_2 t).mp hf; have := t.isLt; omega
  obtain rfl : t = t3_9 := Fin.ext h9
  show (cfg3.win 2).cut (grid3.coords t3_9) ((dat3 V c).after 2 t3_9) = _
  rw [after3_2_last V c t3_9 rfl]
  exact (Memref.read_access_unit_zero (Elt Ideal) main_v25_1 off3_2 (fun a => by rw [congrFun off3_2 a]; simp) (res3_2 V c)).symm

theorem arr3_1 (c : Dev nD) : (dat3 V c).arrAt 1 cfg3.N = res3_1 V c :=
  (dat3 V c).arrAt_eq_of_cover 1 (res3_1 V c) (flushed3_1_eq V c) fun i =>
    ⟨t3_9, (flush3_1 t3_9).mpr rfl, by
      show i ∈ ((View.whole main_v25_0).slice (win3_1.rect t3_9)).set
      rw [View.set_slice_whole]
      exact View.mem_set_unit_zero off3_1 _ i⟩

theorem arr3_2 (c : Dev nD) : (dat3 V c).arrAt 2 cfg3.N = res3_2 V c :=
  (dat3 V c).arrAt_eq_of_cover 2 (res3_2 V c) (flushed3_2_eq V c) fun i =>
    ⟨t3_9, (flush3_2 t3_9).mpr rfl, by
      show i ∈ ((View.whole main_v25_1).slice (win3_2.rect t3_9)).set
      rw [View.set_slice_whole]
      exact View.mem_set_unit_zero off3_2 _ i⟩

theorem idx_facts3 : ∀ t : Fin cfg3.N, win3_0.index t (0 : Fin 2) = t.val ∧ win3_0.index t (1 : Fin 2) = 0 :=
  (by decide +kernel : ∀ t : Fin grid3.N, _)

abbrev x3_0 (c : Dev nD) : S50000x128.Idx → EReal := V c main_v24

theorem iblk3_0_apply (c : Dev nD) (t : Fin cfg3.N) (r : Fin 5000) (d : Fin 128) :
    (iblk3 V c 0 t : Vec Ideal S5000x128 .f32) (ix2 r d)
      = x3_0 V c (ix2 (⟨5000 * t.val + r.val, by have := t.isLt; have : cfg3.N = 10 := N_3; omega⟩ : Fin 50000) d) := by
  obtain ⟨hi0, hi1⟩ := idx_facts3 t
  unfold iblk3 x3_0
  rw [View.read_apply]
  exact congrArg (V c main_v24) (Shape.idx_ext₂
    (by show win3_0.index t 0 * 5000 + 1 * r.val = 5000 * t.val + r.val; rw [hi0]; omega)
    (by show win3_0.index t 1 * 128 + 1 * d.val = d.val; rw [hi1]; omega))

theorem final3_1_apply (c : Dev nD) (d : Fin 128) :
    (dat3 V c).arrAt 1 cfg3.N (ix2 0 d) = ∑ n : Fin 50000, x3_0 V c (ix2 n d) := by
  rw [arr3_1]
  refine (acc_sum (N := cfg3.N) N_3 (fun n h => (iblk3 V c 0 ⟨n, h⟩ : Vec Ideal S5000x128 .f32)) (acc3 V c)
    (fun h => acc3_zero V c h) (fun n h => acc3_succ V c n h) d _).trans ?_
  refine (Finset.sum_congr rfl fun t _ => Finset.sum_congr rfl fun r _ =>
    iblk3_0_apply V c ⟨t.val, by have : cfg3.N = 10 := N_3; omega⟩ r d).trans ?_
  exact sum_blocks (fun n => x3_0 V c (ix2 n d))

theorem final3_2_apply (c : Dev nD) (d : Fin 128) :
    (dat3 V c).arrAt 2 cfg3.N (ix2 0 d) = ∑ n : Fin 50000, x3_0 V c (ix2 n d) * x3_0 V c (ix2 n d) := by
  rw [arr3_2]
  refine (acc_sumsq (N := cfg3.N) N_3 (fun n h => (iblk3 V c 0 ⟨n, h⟩ : Vec Ideal S5000x128 .f32)) (acc3 V c)
    (fun h => acc3_zero V c h) (fun n h => acc3_succ V c n h) d _).trans ?_
  refine (Finset.sum_congr rfl fun t _ => Finset.sum_congr rfl fun r _ =>
    congrArg₂ (fun a b : EReal => a * b) (iblk3_0_apply V c ⟨t.val, by have : cfg3.N = 10 := N_3; omega⟩ r d)
      (iblk3_0_apply V c ⟨t.val, by have : cfg3.N = 10 := N_3; omega⟩ r d)).trans ?_
  exact sum_blocks (fun n => x3_0 V c (ix2 n d) * x3_0 V c (ix2 n d))

end Cert.KernelIdeal.HandV

end
-- ==== Proof.KI.Final4.lean ====
import proofs.«430192_j18786186952966_1_alg».proof.Proof.KI.Reg4
import proofs.«430192_j18786186952966_1_alg».proof.Proof.KI.Final3Math
import proofs.«430192_j18786186952966_1_alg».proof.Proof.Spec

set_option maxRecDepth 16384

noncomputable section

open scoped BigOperators

namespace Cert.KernelIdeal.HandV

open Idealize.ShloMosaic Idealize.ShloMosaic.TcCoe Idealize.SL.Sem
open Idealize.ShloMosaic.Pipeline (Dat)
open Cert.KernelIdeal Cert.KernelIdeal.Gen Cert.KernelIdeal.Hand Cert.Spec Idealize.ShloMosaic.ValueIdx

variable (V : (c : Dev nD) → (b : Ref sig .tc) → Buf (Elt Ideal) ((c : Thread nD τ).loc b))

theorem bcast_row4 (x : Vec Ideal S1x128 .f32) (p : Fin 5000) (q : Fin 128) :
    broadcastTo S5000x128 x broadcasts_S1x128_S5000x128 (ix2 p q) = x (ix2 0 q) :=
  broadcastTo_apply x broadcasts_S1x128_S5000x128 (ix2 p q) (ix2 0 q) (fun a => by
    match a with
    | ⟨0, _⟩ => rfl
    | ⟨1, _⟩ => rfl)

theorem pay4_apply (x0 : Vec Ideal S5000x128 .f32) (x1 x2 x3 x4 : Vec Ideal S1x128 .f32) (p : Fin 5000) (q : Fin 128) :
    k4_pay1 x0 x1 x2 x3 x4 (ix2 p q)
      = ((x0 (ix2 p q) - x1 (ix2 0 q)) * Ideal.rsqrt (x2 (ix2 0 q) + cEps5)) * x3 (ix2 0 q) + x4 (ix2 0 q) := by
  unfold k4_pay1
  simp only [shapeCast_self]
  show ((x0 (ix2 p q) - broadcastTo S5000x128 x1 broadcasts_S1x128_S5000x128 (ix2 p q))
        * broadcastTo S5000x128 (rsqrt (F := Ideal) (addf (F := Ideal) x2 (broadcast S1x128 (Scalar.ofBits (F := Ideal) .f32 0x3727C5AC#32)))) broadcasts_S1x128_S5000x128 (ix2 p q))
        * broadcastTo S5000x128 x3 broadcasts_S1x128_S5000x128 (ix2 p q)
      + broadcastTo S5000x128 x4 broadcasts_S1x128_S5000x128 (ix2 p q) = _
  rw [bcast_row4, bcast_row4, bcast_row4, bcast_row4]
  rfl

abbrev x4_0 (c : Dev nD) : S50000x128.Idx → EReal := V c main_v24
abbrev x4_1 (c : Dev nD) : S1x128.Idx → EReal := V c main_v27
abbrev x4_2 (c : Dev nD) : S1x128.Idx → EReal := V c main_v31
abbrev x4_3 (c : Dev nD) : S1x128.Idx → EReal := V c main_v32
abbrev x4_4 (c : Dev nD) : S1x128.Idx → EReal := V c main_v33

def G4 (c : Dev nD) : S50000x128.Idx → EReal := fun i =>
  ((x4_0 V c i - x4_1 V c (ix2 0 (i 1))) * Ideal.rsqrt (x4_2 V c (ix2 0 (i 1)) + cEps5)) * x4_3 V c (ix2 0 (i 1)) + x4_4 V c (ix2 0 (i 1))

theorem idx_facts4 : ∀ t : Fin cfg4.N,
    (cfg4.win 0).index t (0 : Fin 2) = t.val ∧ (cfg4.win 0).index t (1 : Fin 2) = 0
    ∧ (cfg4.win 5).index t (0 : Fin 2) = t.val ∧ (cfg4.win 5).index t (1 : Fin 2) = 0
    ∧ (cfg4.win 1).index t (0 : Fin 2) = 0 ∧ (cfg4.win 1).index t (1 : Fin 2) = 0
    ∧ (cfg4.win 2).index t (0 : Fin 2) = 0 ∧ (cfg4.win 2).index t (1 : Fin 2) = 0
    ∧ (cfg4.win 3).index t (0 : Fin 2) = 0 ∧ (cfg4.win 3).index t (1 : Fin 2) = 0
    ∧ (cfg4.win 4).index t (0 : Fin 2) = 0 ∧ (cfg4.win 4).index t (1 : Fin 2) = 0 :=
  (by decide +kernel : ∀ t : Fin grid4.N, _)

theorem iblk4_0_apply (c : Dev nD) (t : Fin cfg4.N) (p : Fin 5000) (q : Fin 128) (k : S50000x128.Idx)
    (hk0 : (k 0).val = 5000 * t.val + p.val) (hk1 : (k 1).val = q.val) :
    (iblk4 V c 0 t : Vec Ideal S5000x128 .f32) (ix2 p q) = x4_0 V c k := by
  obtain ⟨_, _, -⟩ := idx_facts4 t
  unfold iblk4
  rw [View.read_apply]
  refine congrArg (V c _) (Shape.idx_ext₂ ?_ ?_)
  · show _ * 5000 + 1 * p.val = (k 0).val; omega
  · show _ * 128 + 1 * q.val = (k 1).val; omega

theorem iblk4_rows (c : Dev nD) (t : Fin cfg4.N) (q : Fin 128) :
    (iblk4 V c 1 t : Vec Ideal S1x128 .f32) (ix2 0 q) = x4_1 V c (ix2 0 q) ∧ (iblk4 V c 2 t : Vec Ideal S1x128 .f32) (ix2 0 q) = x4_2 V c (ix2 0 q)
    ∧ (iblk4 V c 3 t : Vec Ideal S1x128 .f32) (ix2 0 q) = x4_3 V c (ix2 0 q) ∧ (iblk4 V c 4 t : Vec Ideal S1x128 .f32) (ix2 0 q) = x4_4 V c (ix2 0 q) := by
  obtain ⟨-, -, -, -, _, _, _, _, _, _, _, _⟩ := idx_facts4 t
  refine ⟨?_, ?_, ?_, ?_⟩ <;>
  · unfold iblk4
    rw [View.read_apply]
    refine congrArg (V c _) (Shape.idx_ext₂ ?_ ?_)
    · show _ * 1 + 1 * 0 = 0; omega
    · show _ * 128 + 1 * q.val = q.val; omega

theorem point4 (c : Dev nD) (t : Fin cfg4.N) (p : Fin 5000) (q : Fin 128) (k : S50000x128.Idx)
    (hk0 : (k 0).val = 5000 * t.val + p.val) (hk1 : (k 1).val = q.val) :
    k4_pay1 (iblk4 V c 0 t) (iblk4 V c 1 t) (iblk4 V c 2 t) (iblk4 V c 3 t) (iblk4 V c 4 t) (ix2 p q) = G4 V c k := by
  refine (pay4_apply (iblk4 V c 0 t) (iblk4 V c 1 t) (iblk4 V c 2 t) (iblk4 V c 3 t) (iblk4 V c 4 t) p q).trans ?_
  obtain ⟨r1, r2, r3, r4⟩ := iblk4_rows V c t q
  rw [iblk4_0_apply V c t p q k hk0 hk1, r1, r2, r3, r4]
  have hq : q = k 1 := Fin.ext hk1.symm
  subst hq
  rfl

theorem flushed4_eq (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  unfold out4_5
  rw [View.canon_unit_zero zeroOff]
  simp only [View.ld_unit_zero (S := S5000x128) zeroOff, View.ld_unit_zero (S := S1x128) zeroOff]
  obtain ⟨-, -, e0, e1, -⟩ := idx_facts4 t
  funext j
  show k4_pay1 (iblk4 V c 0 t) (iblk4 V c 1 t) (iblk4 V c 2 t) (iblk4 V c 3 t) (iblk4 V c 4 t) j = G4 V c (((cfg4.win 5).blk t).view.emb j)
  rw [eq_ix2 j]
  refine point4 V c t (j 0) (j 1) _ ?_ ?_
  · show (cfg4.win 5).index t (0 : Fin 2) * 5000 + 1 * (j 0).val = 5000 * t.val + (j 0).val; rw [e0]; omega
  · show (cfg4.win 5).index t (1 : Fin 2) * 128 + 1 * (j 1).val = (j 1).val; rw [e1]; omega

def pt4 (i : Fin 50000) : Fin cfg4.N := ⟨i.val / 5000, by have h : cfg4.N = 10 := N_4; omega⟩

theorem final4_5 (c : Dev nD) : (dat4 V c).arrAt 5 cfg4.N = fun (i : S50000x128.Idx) =>
    ((x4_0 V c i - x4_1 V c (ix2 0 (i 1)))
        * Ideal.rsqrt (x4_2 V c (ix2 0 (i 1)) + cEps5))
      * x4_3 V c (ix2 0 (i 1)) + x4_4 V c (ix2 0 (i 1)) :=
  (dat4 V c).arrAt_eq_of_cover 5 (G4 V c) (fun t _ => flushed4_eq V c t) fun (i : S50000x128.Idx) => by
    obtain ⟨-, -, e0, e1, -⟩ := idx_facts4 (pt4 (i 0))
    refine ⟨pt4 (i 0), flush4_5 _, ?_⟩
    show i ∈ ((View.whole main_v34).slice (win4_5.rect (pt4 (i 0)))).set
    rw [View.set_slice_whole]
    exact mem_rowBlock (B := 5000) (by decide) i (by show (cfg4.win 5).index _ (0 : Fin 2) * 5000 = _; exact congrArg (· * 5000) e0) rfl
      (by show (cfg4.win 5).index _ (1 : Fin 2) * 128 = 0; omega) rfl

end Cert.KernelIdeal.HandV

end
-- ==== Proof.KI.Val5.lean ====
import proofs.«430192_j18786186952966_1_alg».proof.Proof.KI.Data
import proofs.«430192_j18786186952966_1_alg».proof.Proof.KI.ValArgs
import proofs.«430192_j18786186952966_1_alg».proof.Proof.KI.Final3
import proofs.«430192_j18786186952966_1_alg».proof.Proof.KI.Final4
import proofs.«430192_j18786186952966_1_alg».proof.Proof.KI.Host04

noncomputable section

open scoped BigOperators

namespace Cert.KernelIdeal.ValV

open Idealize.ShloMosaic Idealize.ShloMosaic.TcCoe Idealize.ShloMosaic.ValueIdx Idealize.SL.Sem
open Cert.KernelIdeal Cert.KernelIdeal.Gen Cert.KernelIdeal.Hand Cert.KernelIdeal.HandV Cert.KernelIdeal.HostV

variable (m : (ℓ : Loc nD τ sig) → Buf (Elt Ideal) ℓ) (c : Dev nD)

theorem en3_eq (r : Ref sig .tc) : En3 m c r = Gen.V9 m (outs m) c r :=
  (congrFun (Ent3_eq m c) (Proc.devRef .tc r)).symm

theorem en4_eq (r : Ref sig .tc) : En4 m c r = Gen.V11 m (outs m) c r :=
  (congrFun (Ent4_eq m c) (Proc.devRef .tc r)).symm

theorem x4_3_at (d : Fin 128) : x4_3 (En4 m) c (ix2 0 d) = aG m c d :=
  (congrFun (en4_eq m c main_v32) (ix2 0 d)).trans <| (h4_gamma (Gen.V10 m (outs m) c) d).trans <| congrFun
    (((Gen.V12_of m (outs m) c main_arg6 (by decide)).trans (Gen.V11_of m (outs m) c main_arg6 (by decide))).symm.trans
      (Gen.V12_main_arg6 m (outs m) c)) (ix1 d)

theorem x4_4_at (d : Fin 128) : x4_4 (En4 m) c (ix2 0 d) = aB m c d :=
  (congrFun (en4_eq m c main_v33) (ix2 0 d)).trans <| (h4_beta (Gen.V10 m (outs m) c) d).trans <| congrFun
    (((Gen.V12_of m (outs m) c main_arg7 (by decide)).trans (Gen.V11_of m (outs m) c main_arg7 (by decide))).symm.trans
      (Gen.V12_main_arg7 m (outs m) c)) (ix1 d)

section
variable (H : Fin 50000 → Fin 128 → EReal) (hH : ∀ n d, (Gen.V9 m (outs m) c main_v24) (ix2 n d) = H n d)
include hH

theorem x3_at (n : Fin 50000) (d : Fin 128) : x3_0 (En3 m) c (ix2 n d) = H n d :=
  (congrFun (en3_eq m c main_v24) (ix2 n d)).trans (hH n d)

theorem v10_sum (d : Fin 128) : (Gen.V10 m (outs m) c main_v25_0) (ix2 0 d) = (∑ n : Fin 50000, H n d : EReal) := by
  have h : Gen.V10 m (outs m) c main_v25_0 = (dat3 (En3 m) c).arrAt 1 cfg3.N := (hF3 m c 1).symm
  have h2 : (∑ n : Fin 50000, x3_0 (En3 m) c (ix2 n d)) = ∑ n : Fin 50000, H n d :=
    Finset.sum_congr rfl fun n _ => x3_at m c H hH n d
  exact ((congrFun h (ix2 0 d)).trans (final3_1_apply (En3 m) c d)).trans h2

theorem v10_sumsq (d : Fin 128) : (Gen.V10 m (outs m) c main_v25_1) (ix2 0 d) = (∑ n : Fin 50000, H n d * H n d : EReal) := by
  have h : Gen.V10 m (outs m) c main_v25_1 = (dat3 (En3 m) c).arrAt 2 cfg3.N := (hF3 m c 2).symm
  have h2 : (∑ n : Fin 50000, x3_0 (En3 m) c (ix2 n d) * x3_0 (En3 m) c (ix2 n d)) = ∑ n : Fin 50000, H n d * H n d :=
    Finset.sum_congr rfl fun n _ => by rw [x3_at m c H hH n d]
  exact ((congrFun h (ix2 0 d)).trans (final3_2_apply (En3 m) c d)).trans h2

theorem x4_0_at (n : Fin 50000) (d : Fin 128) : x4_0 (En4 m) c (ix2 n d) = H n d :=
  (congrFun ((en4_eq m c main_v24).trans ((Gen.V11_of m (outs m) c main_v24 (by decide)).trans
    (Gen.V10_of m (outs m) c main_v24 (by decide)))) (ix2 n d)).trans (hH n d)

theorem x4_1_at (d : Fin 128) : x4_1 (En4 m) c (ix2 0 d) = Ideal.div (∑ n, H n d) Cert.Spec.cN :=
  ((congrFun (en4_eq m c main_v27) (ix2 0 d)).trans (h4_mean (Gen.V10 m (outs m) c) d)).trans
    (by rw [v10_sum m c H hH d])

theorem x4_2_at (d : Fin 128) : x4_2 (En4 m) c (ix2 0 d)
    = Ideal.div (∑ n, H n d * H n d) Cert.Spec.cN - Ideal.div (∑ n, H n d) Cert.Spec.cN * Ideal.div (∑ n, H n d) Cert.Spec.cN :=
  ((congrFun (en4_eq m c main_v31) (ix2 0 d)).trans (h4_var (Gen.V10 m (outs m) c) d)).trans
    (by rw [v10_sumsq m c H hH d, v10_sum m c H hH d])

end

variable (hr : ∀ i, (aEI m c i).toNat < 50000)

theorem val_out (hhh : ∀ n d, (Gen.V9 m (outs m) c main_v24) (ix2 n d) = Cert.Spec.K.hh (aX m c) (aEA m c) (aWQ m c) (aWK m c) (aWV m c) (aWE m c) (aSrc m c hr) (aDst m c hr) n d) (i : S50000x128.Idx) :
    (Gen.V12 m (outs m) c main_v34) i
      = Cert.Spec.K.out (aX m c) (aEA m c) (aWQ m c) (aWK m c) (aWV m c) (aWE m c) (aG m c) (aB m c) (aSrc m c hr) (aDst m c hr) (i 0) (i 1) := by
  obtain ⟨n, d, rfl⟩ : ∃ n d, i = ix2 n d := ⟨i 0, i 1, eq_ix2 i⟩
  have h12 : Gen.V12 m (outs m) c main_v34 = (dat4 (En4 m) c).arrAt 5 cfg4.N := (hF4 m c 5).symm
  refine (congrFun (h12.trans (final4_5 (En4 m) c)) (ix2 n d)).trans ?_
  show ((x4_0 (En4 m) c (ix2 n d) - x4_1 (En4 m) c (ix2 0 d)) * Ideal.rsqrt (x4_2 (En4 m) c (ix2 0 d) + Cert.Spec.cEps5))
      * x4_3 (En4 m) c (ix2 0 d) + x4_4 (En4 m) c (ix2 0 d) = _
  rw [x4_0_at m c _ hhh, x4_1_at m c _ hhh, x4_2_at m c _ hhh, x4_3_at, x4_4_at]
  rfl

end Cert.KernelIdeal.ValV

end
-- ==== Proof.BridgeHead.lean ====
import proofs.«430192_j18786186952966_1_alg».proof.Proof.Spec

noncomputable section

open scoped BigOperators

namespace Cert.Bridge

open Idealize.ShloMosaic Cert.Spec

-- The two literals are the reals 16 and 1/4, and the square root of 16 is 4.
theorem div_sqrt16 (y : EReal) : Ideal.div y (Ideal.sqrt c16) = y * cQuarter := by
  have h16 : c16 = ((16 : ℝ) : EReal) := by simp [c16, Ideal.ofBits, Ideal.ieee, -EReal.coe_mul]; norm_num
  have hq : cQuarter = ((1 / 4 : ℝ) : EReal) := by simp [cQuarter, Ideal.ofBits, Ideal.ieee, -EReal.coe_mul]; norm_num
  rw [h16, hq, Ideal.sqrt_coe, if_neg (by norm_num), show (16 : ℝ) = 4 ^ 2 by norm_num, Real.sqrt_sq (by norm_num),
    Ideal.div_coe (by norm_num : (4 : ℝ) ≠ 0)]

theorem hd_col (h : Fin 8) (j : Fin 16) : hd (col h j) = h := Fin.ext (by simp only [hd, col]; omega)

theorem lo_col (h : Fin 8) (j : Fin 16) : lo (col h j) = j := Fin.ext (by simp only [lo, col]; omega)

theorem col_hd_lo (d : Fin 128) : col (hd d) (lo d) = d := Fin.ext (by simp only [hd, lo, col]; omega)

def colEquiv : Fin 8 × Fin 16 ≃ Fin 128 where
  toFun p := col p.1 p.2
  invFun d := (hd d, lo d)
  left_inv p := by rcases p with ⟨h, j⟩; simp only [hd_col, lo_col]
  right_inv d := col_hd_lo d

-- Of the pairs (head, place) only those of head h have weight 1.
theorem sum_ind (f : Fin 128 → EReal) (h : Fin 8) :
    ∑ d : Fin 128, f d * ind d h = ∑ j : Fin 16, f (col h j) := by
  rw [← colEquiv.sum_comp, Fintype.sum_prod_type_right]
  simp only [colEquiv, Equiv.coe_fn_mk, ind, hd_col, mul_ite, mul_one, mul_zero, Fintype.sum_ite_eq']

-- The 0/1 row of column d picks the head of d.
theorem sum_spread (s : Fin 8 → EReal) (d : Fin 128) :
    ∑ h : Fin 8, s h * ind d h = s (hd d) := by
  simp only [ind, mul_ite, mul_one, mul_zero, Fintype.sum_ite_eq]

section
variable (x : Mat 50000 128) (ea : Mat 600000 128) (WQ WK WV WE : Mat 128 128)
  (src dst : Fin 600000 → Fin 50000)

-- The factor 1/4 may be applied before or after the edge factor.
theorem score_eq (e : Fin 600000) (h : Fin 8) :
    K.score x ea WQ WK WE src dst e h = R.score x ea WQ WK WE src dst e h := by
  unfold K.score R.score
  rw [sum_ind (fun d => ((proj x WK (src e) d * proj x WQ (dst e) d) * proj ea WE e d) * cQuarter) h, zero_add]
  congr 3
  exact Finset.sum_congr rfl fun j _ => by rw [div_sqrt16, mul_right_comm]

theorem hh_eq (n : Fin 50000) (d : Fin 128) :
    K.hh x ea WQ WK WV WE src dst n d = R.hh x ea WQ WK WV WE src dst n d := by
  unfold K.hh R.hh K.wV R.wV K.Z R.Z K.msg R.msg
  simp only [sum_spread, score_eq, col_hd_lo]

end

end Cert.Bridge

end
-- ==== Proof.BridgeNorm.lean ====
import proofs.«430192_j18786186952966_1_alg».proof.Proof.Spec

noncomputable section

open scoped BigOperators

namespace Cert.Bridge.Norm

open Cert.Spec Idealize.ShloMosaic

theorem c5_eq : c5 = ((5 : ℝ) : EReal) := by simp [c5, Ideal.ofBits, Ideal.ieee, -EReal.coe_mul]; norm_num

theorem cM5_eq : cM5 = ((-5 : ℝ) : EReal) := by
  simp [cM5, Ideal.ofBits, Ideal.ieee, -EReal.coe_mul, -EReal.coe_neg]; norm_num

theorem cN_eq : cN = ((50000 : ℝ) : EReal) := by simp [cN, Ideal.ofBits, Ideal.ieee, -EReal.coe_mul]; norm_num

theorem cEps6_pos : ∃ r : ℝ, 0 < r ∧ cEps6 = (r : EReal) := by simp [cEps6, Ideal.ofBits, Ideal.ieee, -EReal.coe_mul]

-- The extended reals that are real numbers: closed under products and finite sums, where the arithmetic is the reals'.
abbrev IsReal (a : EReal) : Prop := ∃ r : ℝ, a = (r : EReal)

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem IsReal.mul {a b : EReal} : IsReal a → IsReal b → IsReal (a * b) := by
  rintro ⟨r, rfl⟩ ⟨s, rfl⟩; exact ⟨r * s, (EReal.coe_mul r s).symm⟩

theorem IsReal.sum {ι : Type} (s : Finset ι) {f : ι → EReal} (h : ∀ i, IsReal (f i)) : IsReal (∑ i ∈ s, f i) := by
  choose g hg using h
  obtain rfl : f = fun i => (g i : EReal) := funext hg
  exact ⟨_, (coe_sum s g).symm⟩

-- A clipped number lies between two reals, so it is one, and the exponential of a real is positive.
theorem exp_clip (y : EReal) : ∃ r : ℝ, 0 < r ∧ Ideal.exp (min c5 (max cM5 y)) = (r : EReal) := by
  have hb : (⊥ : EReal) < min c5 (max cM5 y) := by
    rw [c5_eq, cM5_eq]; exact lt_min (EReal.bot_lt_coe _) (lt_max_of_lt_left (EReal.bot_lt_coe _))
  have ht : min c5 (max cM5 y) < ⊤ := by rw [c5_eq]; exact min_lt_of_left_lt (EReal.coe_lt_top _)
  rw [← EReal.coe_toReal ht.ne hb.ne']
  exact ⟨_, Real.exp_pos _, rfl⟩

theorem segsum_real (dst : Fin 600000 → Fin 50000) {f : Fin 600000 → EReal} (hf : ∀ e, IsReal (f e)) (n : Fin 50000) :
    IsReal (segsum dst f n) := by
  unfold segsum
  rw [zero_add]
  refine IsReal.sum _ fun e => ?_
  show IsReal (if dst e = n then f e else 0)
  split_ifs
  exacts [hf e, ⟨0, rfl⟩]

section
variable (x : Mat 50000 128) (ea : Mat 600000 128) (WQ WK WV WE : Mat 128 128) (g b : Fin 128 → EReal)
  (src dst : Fin 600000 → Fin 50000)

theorem score_pos (e : Fin 600000) (h : Fin 8) : ∃ r : ℝ, 0 < r ∧ K.score x ea WQ WK WE src dst e h = (r : EReal) := exp_clip _

theorem score_real (e : Fin 600000) (h : Fin 8) : IsReal (K.score x ea WQ WK WE src dst e h) :=
  (score_pos x ea WQ WK WE src dst e h).imp fun _ hr => hr.2

theorem ind_real (d : Fin 128) (h : Fin 8) : IsReal (ind d h) := by
  unfold ind; split_ifs; exacts [⟨1, rfl⟩, ⟨0, rfl⟩]

theorem wV_real (hx : ∀ n k, IsReal (x n k)) (hWV : ∀ k j, IsReal (WV k j)) (n : Fin 50000) (d : Fin 128) :
    IsReal (K.wV x ea WQ WK WV WE src dst n d) := by
  unfold K.wV K.msg proj
  exact segsum_real dst (fun e => (IsReal.sum _ fun k => (hx _ k).mul (hWV k d)).mul
    (IsReal.sum _ fun h => (score_real x ea WQ WK WE src dst e h).mul (ind_real d h))) n

theorem Z_real (n : Fin 50000) (h : Fin 8) : IsReal (K.Z x ea WQ WK WE src dst n h) :=
  segsum_real dst (fun e => score_real x ea WQ WK WE src dst e h) n

-- A sum of positive scores and zeros.
theorem Z_nonneg (n : Fin 50000) (h : Fin 8) : 0 ≤ K.Z x ea WQ WK WE src dst n h := by
  unfold K.Z segsum
  rw [zero_add]
  refine Finset.sum_nonneg fun e _ => ?_
  split_ifs
  · obtain ⟨r, hr, he⟩ := score_pos x ea WQ WK WE src dst e h
    exact (EReal.coe_nonneg.2 hr.le).trans_eq he.symm
  · exact le_rfl

-- x + wV / (Z + ε) with x, wV real, Z a nonnegative real and ε a positive one: a real divided by a nonzero real.
theorem hh_real (hx : ∀ n k, IsReal (x n k)) (hWV : ∀ k j, IsReal (WV k j)) (n : Fin 50000) (d : Fin 128) :
    IsReal (K.hh x ea WQ WK WV WE src dst n d) := by
  obtain ⟨w, hw⟩ := wV_real x ea WQ WK WV WE src dst hx hWV n d
  obtain ⟨z, hz⟩ := Z_real x ea WQ WK WE src dst n (hd d)
  have hz0 : 0 ≤ z := EReal.coe_nonneg.1 (by rw [← hz]; exact Z_nonneg x ea WQ WK WE src dst n (hd d))
  obtain ⟨ε, hε, hεeq⟩ := cEps6_pos
  obtain ⟨xr, hxr⟩ := hx n d
  unfold K.hh
  rw [hw, hz, hεeq, hxr, ← EReal.coe_add z ε, Ideal.div_coe (add_pos_of_nonneg_of_pos hz0 hε).ne', ← EReal.coe_mul,
    ← EReal.coe_add]
  exact ⟨_, rfl⟩

end

-- Over the reals the mean of the squared deviations is the mean of the squares minus the squared mean.
theorem var_identity (f : Fin 50000 → ℝ) :
    (∑ n, (f n - (∑ k, f k) * (1 / 50000)) * (f n - (∑ k, f k) * (1 / 50000))) * (1 / 50000)
      = (∑ n, f n * f n) * (1 / 50000) - ((∑ k, f k) * (1 / 50000)) * ((∑ k, f k) * (1 / 50000)) := by
  simp only [sub_mul, mul_sub, Finset.sum_sub_distrib, ← Finset.sum_mul, ← Finset.mul_sum, Finset.sum_const,
    Finset.card_univ, Fintype.card_fin, nsmul_eq_mul]
  push_cast
  ring

end Cert.Bridge.Norm

namespace Cert.Bridge

open Cert.Spec Idealize.ShloMosaic Cert.Bridge.Norm

section
variable (x : Mat 50000 128) (ea : Mat 600000 128) (WQ WK WV WE : Mat 128 128) (g b : Fin 128 → EReal)
  (src dst : Fin 600000 → Fin 50000)

-- With every entry of h real, both means and both variances are coercions of real expressions, equal by var_identity.
theorem out_eq (hx : ∀ n k, ∃ r : ℝ, x n k = (r : EReal)) (hWV : ∀ k j, ∃ r : ℝ, WV k j = (r : EReal))
    (hheq : ∀ n d, K.hh x ea WQ WK WV WE src dst n d = R.hh x ea WQ WK WV WE src dst n d)
    (n : Fin 50000) (d : Fin 128) :
    K.out x ea WQ WK WV WE g b src dst n d = R.out x ea WQ WK WV WE g b src dst n d := by
  choose H hH using fun n => hh_real x ea WQ WK WV WE src dst hx hWV n d
  have hN : (50000 : ℝ) ≠ 0 := by norm_num
  have hm : R.mean x ea WQ WK WV WE src dst d = K.mean x ea WQ WK WV WE src dst d := by
    unfold R.mean K.mean
    simp only [← hheq, zero_add]
  have hv : R.var x ea WQ WK WV WE src dst d = K.var x ea WQ WK WV WE src dst d := by
    unfold R.var K.var K.meanSq
    rw [hm]
    unfold K.mean
    simp only [← hheq, hH, zero_add, cN_eq, Ideal.div_coe hN, ← EReal.coe_mul, ← EReal.coe_sub, ← coe_sum]
    rw [var_identity]
  unfold K.out R.out
  rw [hm, hv, hheq n d]

end

end Cert.Bridge

end
-- ==== Proof.LibGatherSlabs3.lean ====
import Idealize.ShloMosaic.PureOps.Ideal
import Idealize.ShloMosaic.Lib.ValueIdx

namespace Idealize.ShloMosaic.GatherSlabs3

open Idealize.ShloMosaic Idealize.ShloMosaic.ValueIdx

variable {N B A W w : Nat} {α : Type}

-- The gather result[b, :, :] = operand[idx[b, 0], :, :]: operand [N, A, W], start indices [B, 1], result [B, A, W].
abbrev slabs3Dims (N B A W : Nat)
    (wf : GatherDims.WF ⟨3, ![N, A, W]⟩ ⟨2, ![B, 1]⟩ ⟨3, ![B, A, W]⟩ [1, 2] [0] [] [0] [] 1 ![1, A, W]) :
    GatherDims ⟨3, ![N, A, W]⟩ ⟨2, ![B, 1]⟩ ⟨3, ![B, A, W]⟩ where
  offsetDims := [1, 2]
  collapsedSliceDims := [0]
  operandBatchingDims := []
  startIndicesBatchingDims := []
  startIndexMap := [0]
  indexVectorDim := 1
  sliceSizes := ![1, A, W]
  wf := wf

variable (wf : GatherDims.WF ⟨3, ![N, A, W]⟩ ⟨2, ![B, 1]⟩ ⟨3, ![B, A, W]⟩ [1, 2] [0] [] [0] [] 1 ![1, A, W])

abbrev rowIdx (b : Fin B) : (⟨2, ![B, 1]⟩ : Shape).Idx := ix2 b ⟨0, Nat.one_pos⟩

-- Axis 0: a slice of size one at the start word, read signed and clamped into [0, N − 1]; axes 1, 2: whole, the result's own coordinates.
theorem gather_slabs3_apply (hN : 0 < N) (x : (⟨3, ![N, A, W]⟩ : Shape).Idx → α) (idx : IVec ⟨2, ![B, 1]⟩ w)
    (b : Fin B) (a : Fin A) (n : Fin W) :
    Host.gather (slabs3Dims N B A W wf) x idx (ix3 b a n)
      = x (ix3 ⟨min (idx (rowIdx b)).toInt.toNat (N - 1), by omega⟩ a n) := by
  unfold Host.gather
  refine congrArg x (funext fun k => Fin.ext ?_)
  match k with
  | ⟨0, _⟩ =>
    show min (idx ((slabs3Dims N B A W wf).siIdx (ix3 b a n) ⟨0, Nat.one_pos⟩)).toInt.toNat (N - 1) + 0 + 0 = _
    exact congrArg (fun q => min (idx q).toInt.toNat (N - 1))
      (funext fun c => Fin.ext (by match c with | ⟨0, _⟩ => rfl | ⟨1, _⟩ => rfl))
  | ⟨1, _⟩ => show 0 + 0 + a.val = a.val; omega
  | ⟨2, _⟩ => show 0 + 0 + n.val = n.val; omega

end Idealize.ShloMosaic.GatherSlabs3
-- ==== Proof.LibScatterSlabs3.lean ====
import Idealize.ShloMosaic.PureOps.Ideal
import Idealize.ShloMosaic.Lib.ValueIdx

noncomputable section

open scoped BigOperators

namespace Idealize.ShloMosaic.ScatterSlabs3
open Idealize.ShloMosaic Idealize.ShloMosaic.ValueIdx

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

-- A sum over a rank-3 index set is the triple sum over its coordinates.
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

variable {N B A W w : Nat}

-- The scatter-add operand[idx[b, 0], :, :] += updates[b, :, :]: operand [N, A, W], indices [B, 1], updates [B, A, W].
abbrev slab3Dims (N B A W : Nat)
    (wf : ScatterDims.WF ⟨3, ![N, A, W]⟩ ⟨2, ![B, 1]⟩ ⟨3, ![B, A, W]⟩ [1, 2] [0] [0] 1) :
    ScatterDims ⟨3, ![N, A, W]⟩ ⟨2, ![B, 1]⟩ ⟨3, ![B, A, W]⟩ where
  updateWindowDims := [1, 2]
  insertedWindowDims := [0]
  scatterDimsToOperandDims := [0]
  indexVectorDim := 1
  wf := wf

variable (wf : ScatterDims.WF ⟨3, ![N, A, W]⟩ ⟨2, ![B, 1]⟩ ⟨3, ![B, A, W]⟩ [1, 2] [0] [0] 1)

abbrev rowIdx (b : Fin B) : (⟨2, ![B, 1]⟩ : Shape).Idx := ix2 b ⟨0, Nat.one_pos⟩

theorem start_0 (j : (⟨3, ![B, A, W]⟩ : Shape).Idx) (idx : IVec ⟨2, ![B, 1]⟩ w) :
    (slab3Dims N B A W wf).start j idx 0 = (idx (rowIdx (j 0))).toInt :=
  congrArg (fun q => (idx q).toInt) (funext fun b => Fin.ext (by match b with | ⟨0, _⟩ => rfl | ⟨1, _⟩ => rfl))

-- Update (b, a', n') lands on (c, a, n) exactly when slab b's index word, read signed, is c and the other coordinates agree.
theorem resultIdx?_eq_some_iff (j : (⟨3, ![B, A, W]⟩ : Shape).Idx) (idx : IVec ⟨2, ![B, 1]⟩ w)
    (i : (⟨3, ![N, A, W]⟩ : Shape).Idx) :
    (slab3Dims N B A W wf).resultIdx? j idx = some i
      ↔ (idx (rowIdx (j 0))).toInt = ((i 0).val : Int) ∧ (j 1).val = (i 1).val ∧ (j 2).val = (i 2).val := by
  have hi0 : (i 0).val < N := (i 0).isLt
  have hi1 : (i 1).val < A := (i 1).isLt
  have hi2 : (i 2).val < W := (i 2).isLt
  have hj1 : (j 1).val < A := (j 1).isLt
  have hj2 : (j 2).val < W := (j 2).isLt
  have s0 := start_0 wf j idx
  unfold ScatterDims.resultIdx?
  split
  · rename_i h
    have hb : 0 ≤ (slab3Dims N B A W wf).start j idx 0 + ((0 : Nat) : Int) ∧ (slab3Dims N B A W wf).start j idx 0 + ((0 : Nat) : Int) < (N : Int) := h 0
    constructor
    · intro he
      have he' := Option.some.inj he
      have h0 : ((slab3Dims N B A W wf).start j idx 0 + ((0 : Nat) : Int)).toNat = (i 0).val := congrArg (fun f => (f 0).val) he'
      have h1 : ((0 : Int) + ((j 1).val : Nat)).toNat = (i 1).val := congrArg (fun f => (f 1).val) he'
      have h2 : ((0 : Int) + ((j 2).val : Nat)).toNat = (i 2).val := congrArg (fun f => (f 2).val) he'
      refine ⟨?_, ?_, ?_⟩ <;> omega
    · rintro ⟨h0, h1, h2⟩
      refine congrArg some (funext fun a => Fin.ext ?_)
      match a with
      | ⟨0, _⟩ => show ((slab3Dims N B A W wf).start j idx 0 + ((0 : Nat) : Int)).toNat = (i 0).val; omega
      | ⟨1, _⟩ => show ((0 : Int) + ((j 1).val : Nat)).toNat = (i 1).val; omega
      | ⟨2, _⟩ => show ((0 : Int) + ((j 2).val : Nat)).toNat = (i 2).val; omega
  · rename_i h
    refine ⟨fun he => absurd he (by simp), fun ⟨h0, h1, h2⟩ => (h fun a => ?_).elim⟩
    match a with
    | ⟨0, _⟩ =>
      show 0 ≤ (slab3Dims N B A W wf).start j idx 0 + ((0 : Nat) : Int) ∧ (slab3Dims N B A W wf).start j idx 0 + ((0 : Nat) : Int) < (N : Int)
      omega
    | ⟨1, _⟩ => show 0 ≤ (0 : Int) + ((j 1).val : Nat) ∧ (0 : Int) + ((j 1).val : Nat) < (A : Int); omega
    | ⟨2, _⟩ => show 0 ≤ (0 : Int) + ((j 2).val : Nat) ∧ (0 : Int) + ((j 2).val : Nat) < (W : Int); omega

-- At (c, a, n): the operand plus, over the update slabs b, update (b, a, n) where slab b's word is c; a word outside [0, N) equals no c.
theorem hostScatterAdd_slabs3_apply (x : (⟨3, ![N, A, W]⟩ : Shape).Idx → EReal) (idx : IVec ⟨2, ![B, 1]⟩ w)
    (upd : (⟨3, ![B, A, W]⟩ : Shape).Idx → EReal) (c : Fin N) (a : Fin A) (n : Fin W) :
    Ideal.hostScatterAdd (slab3Dims N B A W wf) x idx upd (ix3 c a n)
      = x (ix3 c a n) + ∑ b : Fin B, if (idx (rowIdx b)).toInt = (c.val : Int) then upd (ix3 b a n) else 0 := by
  unfold Ideal.hostScatterAdd
  congr 1
  rw [Finset.sum_filter, sum_idx3]
  refine Finset.sum_congr rfl fun b _ => ?_
  rw [Finset.sum_eq_single a]
  · rw [Finset.sum_eq_single n]
    · simp only [resultIdx?_eq_some_iff]
      show (if (idx (rowIdx b)).toInt = (c.val : Int) ∧ a.val = a.val ∧ n.val = n.val then upd (ix3 b a n) else 0) = _
      simp only [and_true]
    · intro n' _ hne
      rw [if_neg]
      rw [resultIdx?_eq_some_iff]
      rintro ⟨_, _, h2⟩
      exact hne (Fin.ext h2)
    · intro h; exact absurd (Finset.mem_univ n) h
  · intro a' _ hne
    refine Finset.sum_eq_zero fun n' _ => ?_
    rw [if_neg]
    rw [resultIdx?_eq_some_iff]
    rintro ⟨_, h1, _⟩
    exact hne (Fin.ext h1)
  · intro h; exact absurd (Finset.mem_univ a) h

end Idealize.ShloMosaic.ScatterSlabs3

end
-- ==== Proof.RefValue.lean ====
import proofs.«430192_j18786186952966_1_alg».proof.Proof.Gen.ReferenceIdeal.Read
import proofs.«430192_j18786186952966_1_alg».proof.Proof.Spec
import Idealize.ShloMosaic.Lib.Affine
import proofs.«430192_j18786186952966_1_alg».proof.Proof.LibGatherSlabs3
import proofs.«430192_j18786186952966_1_alg».proof.Proof.LibScatterSlabs3

noncomputable section

open scoped BigOperators

namespace Cert.RefValue
open Cert.ReferenceIdeal Cert.ReferenceIdeal.Gen Cert.ReferenceIdeal.Read Idealize.ShloMosaic Idealize.ShloMosaic.ValueIdx
  Idealize.SL.Sem Cert.Spec

-- A product with a weight matrix, read at (n, d), is the projection: the sum over the contracted column.
theorem v0_at (x0 : FVec Ideal S50000x128 .f32) (w : FVec Ideal S128x128 .f32) (n : Fin 50000) (d : Fin 128) :
    val_main_v0 (F := Ideal) x0 w (ix2 n d) = proj (curry2 x0) (curry2 w) n d := by
  rw [val_main_v0_apply]
  refine Finset.sum_congr rfl fun k _ => ?_
  congr 1 <;> exact congrArg _ (eq_ix2 _)

theorem v6_at (x1 : FVec Ideal S600000x128 .f32) (w : FVec Ideal S128x128 .f32) (e : Fin 600000) (d : Fin 128) :
    val_main_v6 (F := Ideal) x1 w (ix2 e d) = proj (curry2 x1) (curry2 w) e d := by
  rw [val_main_v6_apply]
  refine Finset.sum_congr rfl fun k _ => ?_
  congr 1 <;> exact congrArg _ (eq_ix2 _)

-- Row-major position ((n·8 + h)·16 + j) of 8 heads of 16 columns is column 16h + j of row n.
theorem split_idx {N : Nat} (n : Fin N) (h : Fin 8) (j : Fin 16) :
    ((n.val * 8 + h.val) * 16 + j.val) / 128 = n.val ∧ ((n.val * 8 + h.val) * 16 + j.val) % 128 = 16 * h.val + j.val := by
  have := h.isLt; have := j.isLt
  constructor <;> omega

theorem v1_at (x0 : FVec Ideal S50000x128 .f32) (w : FVec Ideal S128x128 .f32) (n : Fin 50000) (h : Fin 8) (j : Fin 16) :
    val_main_v1 (F := Ideal) x0 w (ix3 n h j) = proj (curry2 x0) (curry2 w) n (col h j) := by
  rw [val_main_v1_apply, ← v0_at]
  exact congrArg _ (funext fun a => Fin.ext (by
    match a with
    | ⟨0, _⟩ => exact (split_idx n h j).1
    | ⟨1, _⟩ => exact (split_idx n h j).2))

theorem v7_at (x1 : FVec Ideal S600000x128 .f32) (w : FVec Ideal S128x128 .f32) (e : Fin 600000) (h : Fin 8) (j : Fin 16) :
    val_main_v7 (F := Ideal) x1 w (ix3 e h j) = proj (curry2 x1) (curry2 w) e (col h j) := by
  rw [val_main_v7_apply, ← v6_at]
  exact congrArg _ (funext fun a => Fin.ext (by
    match a with
    | ⟨0, _⟩ => exact (split_idx e h j).1
    | ⟨1, _⟩ => exact (split_idx e h j).2))

theorem v9_at (x8 : IVec S2x600000 32) (e : Fin 600000) : val_main_v9 (F := Ideal) x8 (ix1 e) = x8 (ix2 0 e) := by
  rw [val_main_v9_apply, val_main_v8_apply]
  exact congrArg _ (funext fun a => Fin.ext (by
    match a with
    | ⟨0, _⟩ => rfl
    | ⟨1, _⟩ => exact Nat.mod_eq_of_lt e.isLt))

theorem v11_at (x8 : IVec S2x600000 32) (e : Fin 600000) : val_main_v11 (F := Ideal) x8 (ix1 e) = x8 (ix2 1 e) := by
  rw [val_main_v11_apply, val_main_v10_apply]
  exact congrArg _ (funext fun a => Fin.ext (by
    match a with
    | ⟨0, _⟩ => rfl
    | ⟨1, _⟩ => exact Nat.mod_eq_of_lt e.isLt))

-- A word below 50000 is not negative, so "w + 50000 where w < 0, else w" is w.
theorem norm_word (w : BitVec 32) (h : w.toNat < 50000) :
    Scalar.select (IntOp.cmpi .slt w 0#32) (IntOp.addi w 50000#32) w = w := by
  have hz : IntOp.cmpi .slt w 0#32 = 0#1 := eq_zero_of_ne_one (fun h1 => by
    rw [IntOp.cmpi_slt, BitVec.toInt_eq_toNat_of_lt (x := w) (by omega)] at h1
    have e0 : (0#32 : BitVec 32).toInt = 0 := by decide
    rw [e0] at h1
    omega)
  rw [hz, select_zero]

-- A word below 50000 reads the same signed, and the clamp into [0, 49999] leaves it: the gather reads slab n.
theorem gather_at (T : FVec Ideal S50000x8x16 .f32) (idx : IVec S600000x1 32) (e : Fin 600000) (h : Fin 8) (j : Fin 16)
    (n : Fin 50000) (hn : (idx (ix2 e ⟨0, Nat.one_pos⟩)).toNat = n.val) :
    Host.gather gather_S50000x8x16_S600000x1_S600000x8x16_12_0_n_n_0_1_1816 T idx (ix3 e h j) = T (ix3 n h j) := by
  refine (GatherSlabs3.gather_slabs3_apply gather_S50000x8x16_S600000x1_S600000x8x16_12_0_n_n_0_1_1816_wf (by decide) T idx e h j).trans
    (congrArg T (congrArg (fun q => ix3 q h j) (Fin.ext ?_)))
  show min (idx (ix2 e ⟨0, Nat.one_pos⟩)).toInt.toNat (50000 - 1) = n.val
  have := n.isLt
  rw [BitVec.toInt_eq_toNat_of_lt (by omega), Int.toNat_natCast]
  omega

section
variable (x0 : FVec Ideal S50000x128 .f32) (x1 : FVec Ideal S600000x128 .f32) (x2 x3 x4 x5 : FVec Ideal S128x128 .f32)
  (x6 x7 : FVec Ideal S128 .f32) (x8 : IVec S2x600000 32) (hr : ∀ i, (x8 i).toNat < 50000)
include hr

theorem v16_at (e : Fin 600000) : val_main_v16 (F := Ideal) x8 (ix1 e) = x8 (ix2 0 e) := by
  rw [val_main_v16_apply, val_main_v13_apply, val_main_v15_apply, val_main_v12_apply, val_main_c_apply, val_main_v14_apply,
    val_main_c_0_apply, v9_at]
  exact norm_word _ (hr _)

theorem v23_at (e : Fin 600000) : val_main_v23 (F := Ideal) x8 (ix1 e) = x8 (ix2 1 e) := by
  rw [val_main_v23_apply, val_main_v20_apply, val_main_v22_apply, val_main_v19_apply, val_main_c_1_apply, val_main_v21_apply,
    val_main_c_2_apply, v11_at]
  exact norm_word _ (hr _)

theorem v17_at (e : Fin 600000) (z : Fin 1) : val_main_v17 (F := Ideal) x8 (ix2 e z) = x8 (ix2 0 e) := by
  rw [val_main_v17_apply, ← v16_at x8 hr]
  exact congrArg _ (eq_ix1 _)

theorem v24_at (e : Fin 600000) (z : Fin 1) : val_main_v24 (F := Ideal) x8 (ix2 e z) = x8 (ix2 1 e) := by
  rw [val_main_v24_apply, ← v23_at x8 hr]
  exact congrArg _ (eq_ix1 _)

omit hr in
theorem v45_at (e : Fin 600000) (z : Fin 1) : val_main_v45 (F := Ideal) x8 (ix2 e z) = x8 (ix2 1 e) := by
  rw [val_main_v45_apply, ← v11_at x8 e]
  exact congrArg _ (eq_ix1 _)

omit hr in
theorem v48_at (e : Fin 600000) (z : Fin 1) : val_main_v48 (F := Ideal) x8 (ix2 e z) = x8 (ix2 1 e) :=
  v45_at x8 e z

-- The three gathers are one: rows of a projection, by heads, at the nodes of edge-list row r.
theorem gath (w : FVec Ideal S128x128 .f32) (ei : IVec S600000x1 32) (r : Fin 2)
    (hi : ∀ e, ei (ix2 e ⟨0, Nat.one_pos⟩) = x8 (ix2 r e)) (e : Fin 600000) (h : Fin 8) (j : Fin 16) :
    Host.gather gather_S50000x8x16_S600000x1_S600000x8x16_12_0_n_n_0_1_1816 (val_main_v1 (F := Ideal) x0 w) ei (ix3 e h j)
      = proj (curry2 x0) (curry2 w) (rowOf x8 hr r e) (col h j) := by
  rw [gather_at _ _ e h j (rowOf x8 hr r e) (by rw [hi]; rfl), v1_at]

theorem v18_at (e : Fin 600000) (h : Fin 8) (j : Fin 16) :
    val_main_v18 (F := Ideal) x0 x3 x8 (ix3 e h j) = proj (curry2 x0) (curry2 x3) (rowOf x8 hr 0 e) (col h j) :=
  gath x0 x8 hr x3 _ 0 (fun e => v17_at x8 hr e _) e h j

theorem v25_at (e : Fin 600000) (h : Fin 8) (j : Fin 16) :
    val_main_v25 (F := Ideal) x0 x2 x8 (ix3 e h j) = proj (curry2 x0) (curry2 x2) (rowOf x8 hr 1 e) (col h j) :=
  gath x0 x8 hr x2 _ 1 (fun e => v24_at x8 hr e _) e h j

theorem v41_at (e : Fin 600000) (h : Fin 8) (j : Fin 16) :
    val_main_v41 (F := Ideal) x0 x4 x8 (ix3 e h j) = proj (curry2 x0) (curry2 x4) (rowOf x8 hr 0 e) (col h j) :=
  gath x0 x8 hr x4 _ 0 (fun e => v17_at x8 hr e _) e h j

theorem v30_at (e : Fin 600000) (h : Fin 8) (j : Fin 16) :
    val_main_v30 (F := Ideal) x0 x1 x2 x3 x5 x8 (ix3 e h j)
      = Ideal.div (proj (curry2 x0) (curry2 x3) (rowOf x8 hr 0 e) (col h j) * proj (curry2 x0) (curry2 x2) (rowOf x8 hr 1 e) (col h j))
          (Ideal.sqrt c16) * proj (curry2 x1) (curry2 x5) e (col h j) := by
  rw [val_main_v30_apply, val_main_v29_apply, val_main_v26_apply, val_main_v28_apply, val_main_v27_apply, val_main_cst_apply,
    v18_at x0 x3 x8 hr, v25_at x0 x2 x8 hr, v7_at]
  rfl

theorem v31_at (e : Fin 600000) (h : Fin 8) :
    val_main_v31 (F := Ideal) x0 x1 x2 x3 x5 x8 (ix2 e h)
      = 0 + ∑ j : Fin 16, Ideal.div (proj (curry2 x0) (curry2 x3) (rowOf x8 hr 0 e) (col h j) * proj (curry2 x0) (curry2 x2) (rowOf x8 hr 1 e) (col h j))
          (Ideal.sqrt c16) * proj (curry2 x1) (curry2 x5) e (col h j) := by
  rw [val_main_v31_apply, val_main_cst_3_apply, Ideal.ofBits_def, Ideal.ofBits_zero_f32]
  refine congrArg (0 + ·) (Finset.sum_congr rfl fun k _ => ?_)
  rw [← v30_at x0 x1 x2 x3 x5 x8 hr]
  exact congrArg _ (eq_ix3 _)

theorem v34_at (e : Fin 600000) (h : Fin 8) (z : Fin 1) :
    val_main_v34 (F := Ideal) x0 x1 x2 x3 x5 x8 (ix3 e h z)
      = R.score (curry2 x0) (curry2 x1) (curry2 x2) (curry2 x3) (curry2 x5) (rowOf x8 hr 0) (rowOf x8 hr 1) e h := by
  have hi : idx_main_v32 (ix3 e h z) = ix2 e h := eq_ix2 _
  rw [val_main_v34_apply, val_main_v33_apply, val_main_call0_v4_apply, val_main_call0_v3_apply, val_main_cst_5_apply,
    val_main_call0_v2_apply, val_main_call0_v1_apply, val_main_call0_v0_apply, val_main_cst_4_apply, val_main_v32_apply, hi,
    v31_at x0 x1 x2 x3 x5 x8 hr]
  rfl

theorem v43_at (e : Fin 600000) (h : Fin 8) (j : Fin 16) :
    val_main_v43 (F := Ideal) x0 x1 x2 x3 x4 x5 x8 (ix3 e h j)
      = R.msg (curry2 x0) (curry2 x1) (curry2 x2) (curry2 x3) (curry2 x4) (curry2 x5) (rowOf x8 hr 0) (rowOf x8 hr 1) e h j := by
  have hi : idx_main_v42 (ix3 e h j) = ix3 e h ⟨0, Nat.one_pos⟩ := eq_ix3 _
  rw [val_main_v43_apply, val_main_v42_apply, hi, v34_at x0 x1 x2 x3 x5 x8 hr, v41_at x0 x4 x8 hr]
  rfl

-- The destination word of edge e, read signed, is n exactly when the edge arrives at n.
theorem dst_iff (e : Fin 600000) (n : Fin 50000) :
    (x8 (ix2 1 e)).toInt = (n.val : Int) ↔ rowOf x8 hr 1 e = n := by
  have := hr (ix2 1 e)
  rw [BitVec.toInt_eq_toNat_of_lt (by omega)]
  constructor
  · intro h; exact Fin.ext (by show (x8 (ix2 1 e)).toNat = n.val; omega)
  · intro h; rw [← h]; rfl

-- A scatter-add into zeros is, at node n, zero plus the sum of the updates whose edge arrives at n.
theorem v46_at (n : Fin 50000) (h : Fin 8) (j : Fin 16) :
    val_main_v46 (F := Ideal) x0 x1 x2 x3 x4 x5 x8 (ix3 n h j) = R.wV (curry2 x0) (curry2 x1) (curry2 x2) (curry2 x3) (curry2 x4) (curry2 x5) (rowOf x8 hr 0) (rowOf x8 hr 1) n h j := by
  have hd : scatter_S50000x8x16_S600000x1_S600000x8x16_12_0_0_1
      = ScatterSlabs3.slab3Dims 50000 600000 8 16 scatter_S50000x8x16_S600000x1_S600000x8x16_12_0_0_1_wf := rfl
  unfold val_main_v46
  simp only [Host.scatterAdd, Ideal.hostScatterAdd_def]
  rw [hd, ScatterSlabs3.hostScatterAdd_slabs3_apply, val_main_v44_apply, val_main_cst_8_apply, Ideal.ofBits_def, Ideal.ofBits_zero_f32]
  show _ = 0 + ∑ e : Fin 600000, if rowOf x8 hr 1 e = n then R.msg (curry2 x0) (curry2 x1) (curry2 x2) (curry2 x3) (curry2 x4) (curry2 x5) (rowOf x8 hr 0) (rowOf x8 hr 1) e h j else 0
  refine congrArg (0 + ·) (Finset.sum_congr rfl fun e _ => ?_)
  rw [v45_at, v43_at x0 x1 x2 x3 x4 x5 x8 hr]
  simp only [dst_iff x8 hr]

theorem v49_at (n : Fin 50000) (h : Fin 8) (z : Fin 1) :
    val_main_v49 (F := Ideal) x0 x1 x2 x3 x5 x8 (ix3 n h z) = R.Z (curry2 x0) (curry2 x1) (curry2 x2) (curry2 x3) (curry2 x5) (rowOf x8 hr 0) (rowOf x8 hr 1) n h := by
  have hd : scatter_S50000x8x1_S600000x1_S600000x8x1_12_0_0_1
      = ScatterSlabs3.slab3Dims 50000 600000 8 1 scatter_S50000x8x1_S600000x1_S600000x8x1_12_0_0_1_wf := rfl
  unfold val_main_v49
  simp only [Host.scatterAdd, Ideal.hostScatterAdd_def]
  rw [hd, ScatterSlabs3.hostScatterAdd_slabs3_apply, val_main_v47_apply, val_main_cst_9_apply, Ideal.ofBits_def, Ideal.ofBits_zero_f32]
  show _ = 0 + ∑ e : Fin 600000, if rowOf x8 hr 1 e = n then R.score (curry2 x0) (curry2 x1) (curry2 x2) (curry2 x3) (curry2 x5) (rowOf x8 hr 0) (rowOf x8 hr 1) e h else 0
  refine congrArg (0 + ·) (Finset.sum_congr rfl fun e _ => ?_)
  rw [v48_at, v34_at x0 x1 x2 x3 x5 x8 hr]
  simp only [dst_iff x8 hr]

theorem v53_at (n : Fin 50000) (h : Fin 8) (j : Fin 16) :
    val_main_v53 (F := Ideal) x0 x1 x2 x3 x4 x5 x8 (ix3 n h j)
      = Ideal.div (R.wV (curry2 x0) (curry2 x1) (curry2 x2) (curry2 x3) (curry2 x4) (curry2 x5) (rowOf x8 hr 0) (rowOf x8 hr 1) n h j) (R.Z (curry2 x0) (curry2 x1) (curry2 x2) (curry2 x3) (curry2 x5) (rowOf x8 hr 0) (rowOf x8 hr 1) n h + cEps6) := by
  have hi : idx_main_v52 (ix3 n h j) = ix3 n h ⟨0, Nat.one_pos⟩ := eq_ix3 _
  rw [val_main_v53_apply, val_main_v52_apply, hi, val_main_v51_apply, val_main_v50_apply, val_main_cst_10_apply,
    v46_at x0 x1 x2 x3 x4 x5 x8 hr, v49_at x0 x1 x2 x3 x5 x8 hr]
  rfl

theorem v55_at (n : Fin 50000) (d : Fin 128) :
    val_main_v55 (F := Ideal) x0 x1 x2 x3 x4 x5 x8 (ix2 n d) = R.hh (curry2 x0) (curry2 x1) (curry2 x2) (curry2 x3) (curry2 x4) (curry2 x5) (rowOf x8 hr 0) (rowOf x8 hr 1) n d := by
  have hi : idx_main_v54 (ix2 n d) = ix3 n (hd d) (lo d) := funext fun a => Fin.ext (by
    have := d.isLt
    match a with
    | ⟨0, _⟩ => show (n.val * 128 + d.val) / 128 = n.val; omega
    | ⟨1, _⟩ => show (n.val * 128 + d.val) / 16 % 8 = d.val / 16; omega
    | ⟨2, _⟩ => show (n.val * 128 + d.val) % 16 = d.val % 16; omega)
  rw [val_main_v55_apply, val_main_v54_apply, hi, v53_at x0 x1 x2 x3 x4 x5 x8 hr]
  rfl

theorem v58_at (d : Fin 128) :
    val_main_v58 (F := Ideal) x0 x1 x2 x3 x4 x5 x8 (ix1 d) = R.mean (curry2 x0) (curry2 x1) (curry2 x2) (curry2 x3) (curry2 x4) (curry2 x5) (rowOf x8 hr 0) (rowOf x8 hr 1) d := by
  have hs : ∀ k : Fin 50000, val_main_v55 (F := Ideal) x0 x1 x2 x3 x4 x5 x8 (idx_main_v56 (ix1 d) k) = R.hh (curry2 x0) (curry2 x1) (curry2 x2) (curry2 x3) (curry2 x4) (curry2 x5) (rowOf x8 hr 0) (rowOf x8 hr 1) k d :=
    fun k => by
      rw [← v55_at x0 x1 x2 x3 x4 x5 x8 hr]
      exact congrArg _ (eq_ix2 _)
  rw [val_main_v58_apply, val_main_v57_apply, val_main_cst_12_apply, val_main_v56_apply, val_main_cst_11_apply]
  simp only [hs, Ideal.ofBits_def, Ideal.ofBits_zero_f32]
  rfl

theorem v60_at (n : Fin 50000) (d : Fin 128) :
    val_main_v60 (F := Ideal) x0 x1 x2 x3 x4 x5 x8 (ix2 n d) = R.mean (curry2 x0) (curry2 x1) (curry2 x2) (curry2 x3) (curry2 x4) (curry2 x5) (rowOf x8 hr 0) (rowOf x8 hr 1) d := by
  rw [val_main_v60_apply, val_main_v59_apply, ← v58_at x0 x1 x2 x3 x4 x5 x8 hr]
  exact congrArg _ (eq_ix1 _)

theorem v67_at (n : Fin 50000) (d : Fin 128) :
    val_main_v67 (F := Ideal) x0 x1 x2 x3 x4 x5 x8 (ix2 n d) = R.mean (curry2 x0) (curry2 x1) (curry2 x2) (curry2 x3) (curry2 x4) (curry2 x5) (rowOf x8 hr 0) (rowOf x8 hr 1) d :=
  v60_at x0 x1 x2 x3 x4 x5 x8 hr n d

theorem v65_at (d : Fin 128) :
    val_main_v65 (F := Ideal) x0 x1 x2 x3 x4 x5 x8 (ix1 d) = R.var (curry2 x0) (curry2 x1) (curry2 x2) (curry2 x3) (curry2 x4) (curry2 x5) (rowOf x8 hr 0) (rowOf x8 hr 1) d := by
  have hs : ∀ k : Fin 50000, val_main_v62 (F := Ideal) x0 x1 x2 x3 x4 x5 x8 (idx_main_v63 (ix1 d) k)
      = (R.hh (curry2 x0) (curry2 x1) (curry2 x2) (curry2 x3) (curry2 x4) (curry2 x5) (rowOf x8 hr 0) (rowOf x8 hr 1) k d - R.mean (curry2 x0) (curry2 x1) (curry2 x2) (curry2 x3) (curry2 x4) (curry2 x5) (rowOf x8 hr 0) (rowOf x8 hr 1) d) * (R.hh (curry2 x0) (curry2 x1) (curry2 x2) (curry2 x3) (curry2 x4) (curry2 x5) (rowOf x8 hr 0) (rowOf x8 hr 1) k d - R.mean (curry2 x0) (curry2 x1) (curry2 x2) (curry2 x3) (curry2 x4) (curry2 x5) (rowOf x8 hr 0) (rowOf x8 hr 1) d) :=
    fun k => by
      have hi : idx_main_v63 (ix1 d) k = ix2 k d := eq_ix2 _
      rw [hi, val_main_v62_apply, val_main_v61_apply, v55_at x0 x1 x2 x3 x4 x5 x8 hr, v60_at x0 x1 x2 x3 x4 x5 x8 hr]
      rfl
  rw [val_main_v65_apply, val_main_v64_apply, val_main_cst_14_apply, val_main_v63_apply, val_main_cst_13_apply]
  simp only [hs, Ideal.ofBits_def, Ideal.ofBits_zero_f32]
  rfl

theorem v73_at (n : Fin 50000) (d : Fin 128) :
    val_main_v73 (F := Ideal) x0 x1 x2 x3 x4 x5 x8 (ix2 n d) = Ideal.rsqrt (R.var (curry2 x0) (curry2 x1) (curry2 x2) (curry2 x3) (curry2 x4) (curry2 x5) (rowOf x8 hr 0) (rowOf x8 hr 1) d + cEps5) := by
  have hi : idx_main_v72 (idx_main_v73 (ix2 n d)) = ix1 d := eq_ix1 _
  rw [val_main_v73_apply, val_main_v72_apply, hi, val_main_v71_apply, val_main_v70_apply, val_main_v69_apply,
    val_main_cst_15_apply, v65_at x0 x1 x2 x3 x4 x5 x8 hr]
  rfl

-- The reference's result, as a function of its nine argument arrays, index by index.
theorem ref_value : val_main_v80 (F := Ideal) x0 x1 x2 x3 x4 x5 x6 x7 x8 = fun i =>
    R.out (curry2 x0) (curry2 x1) (curry2 x2) (curry2 x3) (curry2 x4) (curry2 x5) (curry1 x6) (curry1 x7) (rowOf x8 hr 0) (rowOf x8 hr 1) (i 0) (i 1) := by
  funext i
  obtain ⟨n, d, rfl⟩ : ∃ n d, i = ix2 n d := ⟨i 0, i 1, eq_ix2 i⟩
  have h76 : idx_main_v75 (idx_main_v76 (ix2 n d)) = ix1 d := eq_ix1 _
  have h79 : idx_main_v78 (idx_main_v79 (ix2 n d)) = ix1 d := eq_ix1 _
  rw [val_main_v80_apply, val_main_v77_apply, val_main_v74_apply, val_main_v68_apply, val_main_v76_apply, val_main_v75_apply, h76,
    val_main_v79_apply, val_main_v78_apply, h79, v55_at x0 x1 x2 x3 x4 x5 x8 hr, v67_at x0 x1 x2 x3 x4 x5 x8 hr,
    v73_at x0 x1 x2 x3 x4 x5 x8 hr]
  rfl

end
end Cert.RefValue

end
-- ==== Proof.AsmRef.lean ====
import proofs.«430192_j18786186952966_1_alg».proof.Proof.RefValue
import proofs.«430192_j18786186952966_1_alg».proof.Proof.PreFacts

noncomputable section

namespace Cert.Asm

open Idealize.ShloMosaic Idealize.ShloMosaic.ValueIdx Idealize.SL.Sem Cert.Spec Cert.Pre_finite_inputs

theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (Cert.ReferenceIdeal.Value.run (F := Ideal) m ρ)

-- The common result: the reference's function of the kernel memory's nine argument arrays.
def GK (m : (ℓ : Loc Cert.KernelIdeal.nD Cert.KernelIdeal.τ Cert.KernelIdeal.sig) → Buf (Elt Ideal) ℓ)
    (c : Dev Cert.KernelIdeal.nD)
    (hr : ∀ i, ((m ((c.tc : Thread Cert.KernelIdeal.nD Cert.KernelIdeal.τ).loc Cert.KernelIdeal.main_arg8) : IVec S2x600000 32) i).toNat < 50000) : FVec Ideal S50000x128 .f32 :=
  fun i => R.out (curry2 (m ((c.tc : Thread Cert.KernelIdeal.nD Cert.KernelIdeal.τ).loc Cert.KernelIdeal.main_arg0) : FVec Ideal S50000x128 .f32))
        (curry2 (m ((c.tc : Thread Cert.KernelIdeal.nD Cert.KernelIdeal.τ).loc Cert.KernelIdeal.main_arg1) : FVec Ideal S600000x128 .f32))
        (curry2 (m ((c.tc : Thread Cert.KernelIdeal.nD Cert.KernelIdeal.τ).loc Cert.KernelIdeal.main_arg2) : FVec Ideal S128x128 .f32))
        (curry2 (m ((c.tc : Thread Cert.KernelIdeal.nD Cert.KernelIdeal.τ).loc Cert.KernelIdeal.main_arg3) : FVec Ideal S128x128 .f32))
        (curry2 (m ((c.tc : Thread Cert.KernelIdeal.nD Cert.KernelIdeal.τ).loc Cert.KernelIdeal.main_arg4) : FVec Ideal S128x128 .f32))
        (curry2 (m ((c.tc : Thread Cert.KernelIdeal.nD Cert.KernelIdeal.τ).loc Cert.KernelIdeal.main_arg5) : FVec Ideal S128x128 .f32))
        (curry1 (m ((c.tc : Thread Cert.KernelIdeal.nD Cert.KernelIdeal.τ).loc Cert.KernelIdeal.main_arg6) : FVec Ideal S128 .f32))
        (curry1 (m ((c.tc : Thread Cert.KernelIdeal.nD Cert.KernelIdeal.τ).loc Cert.KernelIdeal.main_arg7) : FVec Ideal S128 .f32))
        (rowOf (m ((c.tc : Thread Cert.KernelIdeal.nD Cert.KernelIdeal.τ).loc Cert.KernelIdeal.main_arg8) : IVec S2x600000 32) hr 0) (rowOf (m ((c.tc : Thread Cert.KernelIdeal.nD Cert.KernelIdeal.τ).loc Cert.KernelIdeal.main_arg8) : IVec S2x600000 32) hr 1)
        (i 0) (i 1)

section
variable (m : (ℓ : Loc Cert.KernelIdeal.nD Cert.KernelIdeal.τ Cert.KernelIdeal.sig) → Buf (Elt Ideal) ℓ)

theorem hr_of_pre (h : Cert.Pre_KernelIdeal m) (c : Dev Cert.KernelIdeal.nD) :
    ∀ i, ((m ((c.tc : Thread Cert.KernelIdeal.nD Cert.KernelIdeal.τ).loc Cert.KernelIdeal.main_arg8) : IVec S2x600000 32) i).toNat < 50000 :=
  (Cert.PreFacts.finite_of_pre m h c).2.2.2.2.2.2.2.2

end

end Cert.Asm

end
-- ==== Proof.AsmK.lean ====
import proofs.«430192_j18786186952966_1_alg».proof.Proof.KI.Run
import proofs.«430192_j18786186952966_1_alg».proof.Proof.KI.ValArgs
import proofs.«430192_j18786186952966_1_alg».proof.Proof.KI.Val12
import proofs.«430192_j18786186952966_1_alg».proof.Proof.KI.Val3
import proofs.«430192_j18786186952966_1_alg».proof.Proof.KI.Val4
import proofs.«430192_j18786186952966_1_alg».proof.Proof.KI.Val5
import proofs.«430192_j18786186952966_1_alg».proof.Proof.BridgeHead
import proofs.«430192_j18786186952966_1_alg».proof.Proof.BridgeNorm
import proofs.«430192_j18786186952966_1_alg».proof.Proof.PreFacts
import proofs.«430192_j18786186952966_1_alg».proof.Proof.AsmRef

set_option maxRecDepth 16384

noncomputable section

namespace Cert.Asm

open Idealize.ShloMosaic Idealize.ShloMosaic.TcCoe Idealize.ShloMosaic.ValueIdx Idealize.SL.Sem Cert.Spec Cert.KernelIdeal.ValV

variable (m : (ℓ : Loc Cert.KernelIdeal.nD Cert.KernelIdeal.τ Cert.KernelIdeal.sig) → Buf (Elt Ideal) ℓ)

theorem kernel_hh (c : Dev Cert.KernelIdeal.nD) (hr : ∀ i, (aEI m c i).toNat < 50000) (n : Fin 50000) (d : Fin 128) :
    (Cert.KernelIdeal.Gen.V9 m (Cert.KernelIdeal.Hand.outs m) c Cert.KernelIdeal.main_v24) (ix2 n d)
      = K.hh (aX m c) (aEA m c) (aWQ m c) (aWK m c) (aWV m c) (aWE m c) (aSrc m c hr) (aDst m c hr) n d :=
  val_hh m c hr
    (fun e h' => val_score m c hr (val_q m c) (val_k m c) (val_eh m c) (val_sum m c) e h')
    (fun e d' => val_msg m c hr (val_q m c) (val_k m c) (val_v m c) (val_eh m c) (val_sum m c) (val_spread m c) e d')
    (fun e => val_dst m c e)
    n d

theorem kernel_value (h : Cert.Pre_KernelIdeal m) (c : Dev Cert.KernelIdeal.nD) :
    Cert.KernelIdeal.Gen.V12 m (Cert.KernelIdeal.Hand.outs m) c Cert.KernelIdeal.main_v34 = GK m c (hr_of_pre m h c) := by
  have hr : ∀ i, (aEI m c i).toNat < 50000 := hr_of_pre m h c
  obtain ⟨hx0, -, -, -, hWV0, -, -, -, -⟩ := Cert.PreFacts.finite_of_pre m h c
  have hx : ∀ n k, ∃ r : ℝ, aX m c n k = (r : EReal) := fun n k => hx0 (ix2 n k)
  have hWV : ∀ k j, ∃ r : ℝ, aWV m c k j = (r : EReal) := fun k j => hWV0 (ix2 k j)
  funext i
  exact (val_out m c hr (kernel_hh m c hr) i).trans
    (Cert.Bridge.out_eq (aX m c) (aEA m c) (aWQ m c) (aWK m c) (aWV m c) (aWE m c) (aG m c) (aB m c) (aSrc m c hr) (aDst m c hr)
      hx hWV (fun n d => Cert.Bridge.hh_eq (aX m c) (aEA m c) (aWQ m c) (aWK m c) (aWV m c) (aWE m c) (aSrc m c hr) (aDst m c hr) n d)
      (i 0) (i 1))

/-- Both runs end at the one function `GK` of the kernel memory's arguments, which the reference's memory shares. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' h hag =>
    ⟨fun c => GK m c (hr_of_pre m h c),
      (θ_run Cert.KernelIdeal.defs _ _).mono (fun _ hh c => ⟨(hh c).1.trans (kernel_value m h c), (hh c).2⟩)
        (Cert.KernelIdeal.Hand.result (F := Ideal) m ρ),
      (θ_run Cert.ReferenceIdeal.defs _ _).mono
        (fun _ hh c => ⟨(hh c).1.trans (by
          obtain ⟨e0, e1, e2, e3, e4, e5, e6, e7, e8⟩ := hag c
          rw [Cert.ReferenceIdeal.Read.val_main_v80_eq, e0, e1, e2, e3, e4, e5, e6, e7, e8]
          exact Cert.RefValue.ref_value _ _ _ _ _ _ _ _ _ (hr_of_pre m h c)), (hh c).2⟩)
        (Cert.ReferenceIdeal.Value.run (F := Ideal) m' ρ')⟩

end Cert.Asm

end
-- ==== Proof.lean ====
import proofs.«430192_j18786186952966_1_alg».proof.Defs
import proofs.«430192_j18786186952966_1_alg».proof.Proof.Gen.Kernel
import proofs.«430192_j18786186952966_1_alg».proof.Proof.Gen.KernelIdeal
import proofs.«430192_j18786186952966_1_alg».proof.Proof.Gen.ReferenceIdeal
import proofs.«430192_j18786186952966_1_alg».proof.Proof.Gen.Pre_finite_inputs
import proofs.«430192_j18786186952966_1_alg».proof.Proof.Same
import proofs.«430192_j18786186952966_1_alg».proof.Proof.AsmK
import proofs.«430192_j18786186952966_1_alg».proof.Proof.AsmRef

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Same.frame_Kernel,
    fun m ρ _ => Cert.KernelIdeal.Hand.frame (F := Ideal) m ρ,
    Cert.Asm.frame_ri,
    trivial,
    Cert.Asm.algebraic⟩

end Cert.Proof

end
